-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x77 : Shape := ⟨2, ![16, 77]⟩
abbrev S16 : Shape := ⟨1, ![16]⟩
abbrev S117x16x768 : Shape := ⟨3, ![117, 16, 768]⟩
abbrev S49408x768 : Shape := ⟨2, ![49408, 768]⟩
abbrev S1x16 : Shape := ⟨2, ![1, 16]⟩
abbrev S_ : Shape := ⟨0, ![]⟩

class Facts : Prop where
  bcast_S_S117x16x768 : S_.BroadcastsInDim S117x16x768 (![] : Fin 0 → Fin S117x16x768.rank)
  reducesTo_S117x16x768_S_d0_1_2 : S117x16x768.ReducesTo [0, 1, 2] S_
  h_S_ : 0 < S_.numel
  bcast_S_S49408x768 : S_.BroadcastsInDim S49408x768 (![] : Fin 0 → Fin S49408x768.rank)
  reducesTo_S49408x768_S_d0_1 : S49408x768.ReducesTo [0, 1] S_
  bcast_S_S16x77 : S_.BroadcastsInDim S16x77 (![] : Fin 0 → Fin S16x77.rank)
  reducesTo_S16x77_S_d0_1 : S16x77.ReducesTo [0, 1] S_

variable [Facts]

def fn {F : FTy → Type} [FloatOps F] (main_arg0 : IVec S16x77 32) (main_arg1 : IVec S16 32) (main_arg2 : FVec F S117x16x768 .f32) (main_arg3 : FVec F S49408x768 .f32) (main_arg4 : IVec S1x16 32) : IVec S_ 1 :=
  let main_v0 : FVec F S117x16x768 .f32 := Host.absf main_arg2
  let main_cst : FVec F S_ .f32 := constant S_ .f32 0x7F800000#32
  let main_v1 : FVec F S117x16x768 .f32 := broadcastInDim S117x16x768 ![] bcast_S_S117x16x768 main_cst
  let main_v2 : IVec S117x16x768 1 := cmpf .olt main_v0 main_v1
  let main_c : IVec S_ 1 := constantI S_ 1 1#1
  let main_v3 : IVec S_ 1 := (fun x v => Host.reduce IntOp.andi x v reducesTo_S117x16x768_S_d0_1_2 h_S_) main_v2 main_c
  let main_v4 : FVec F S49408x768 .f32 := Host.absf main_arg3
  let main_cst_0 : FVec F S_ .f32 := constant S_ .f32 0x7F800000#32
  let main_v5 : FVec F S49408x768 .f32 := broadcastInDim S49408x768 ![] bcast_S_S49408x768 main_cst_0
  let main_v6 : IVec S49408x768 1 := cmpf .olt main_v4 main_v5
  let main_c_1 : IVec S_ 1 := constantI S_ 1 1#1
  let main_v7 : IVec S_ 1 := (fun x v => Host.reduce IntOp.andi x v reducesTo_S49408x768_S_d0_1 h_S_) main_v6 main_c_1
  let main_v8 : IVec S_ 1 := andi main_v3 main_v7
  let main_c_2 : IVec S_ 32 := constantI S_ 32 0#32
  let main_v9 : IVec S16x77 32 := broadcastInDim S16x77 ![] bcast_S_S16x77 main_c_2
  let main_v10 : IVec S16x77 1 := cmpi .sge main_arg0 main_v9
  let main_c_3 : IVec S_ 32 := constantI S_ 32 49408#32
  let main_v11 : IVec S16x77 32 := broadcastInDim S16x77 ![] bcast_S_S16x77 main_c_3
  let main_v12 : IVec S16x77 1 := cmpi .slt main_arg0 main_v11
  let main_v13 : IVec S16x77 1 := andi main_v10 main_v12
  let main_c_4 : IVec S_ 1 := constantI S_ 1 1#1
  let main_v14 : IVec S_ 1 := (fun x v => Host.reduce IntOp.andi x v reducesTo_S16x77_S_d0_1 h_S_) main_v13 main_c_4
  let main_v15 : IVec S_ 1 := andi main_v8 main_v14
  main_v15
-- ==== Kernel.lean ====
abbrev S16x77 : Shape := ⟨2, ![16, 77]⟩
abbrev S16 : Shape := ⟨1, ![16]⟩
abbrev S117x16x768 : Shape := ⟨3, ![117, 16, 768]⟩
abbrev S49408x768 : Shape := ⟨2, ![49408, 768]⟩
abbrev S1x16 : Shape := ⟨2, ![1, 16]⟩
abbrev S16x1 : Shape := ⟨2, ![16, 1]⟩
abbrev S77 : Shape := ⟨1, ![77]⟩
abbrev S1x77 : Shape := ⟨2, ![1, 77]⟩
abbrev S_ : Shape := ⟨0, ![]⟩
abbrev S16x77x1 : Shape := ⟨3, ![16, 77, 1]⟩
abbrev S1 : Shape := ⟨1, ![1]⟩
abbrev S1x1x1 : Shape := ⟨3, ![1, 1, 1]⟩
abbrev S1232 : Shape := ⟨1, ![1232]⟩
abbrev S1232x1x768 : Shape := ⟨3, ![1232, 1, 768]⟩
abbrev S16x1x768 : Shape := ⟨3, ![16, 1, 768]⟩
abbrev S1x1x768 : Shape := ⟨3, ![1, 1, 768]⟩
abbrev S1x768 : Shape := ⟨2, ![1, 768]⟩
abbrev S16x77x768 : Shape := ⟨3, ![16, 77, 768]⟩
abbrev S16x1x77 : Shape := ⟨3, ![16, 1, 77]⟩
abbrev S1x1x16 : Shape := ⟨3, ![1, 1, 16]⟩
abbrev S16x77x16 : Shape := ⟨3, ![16, 77, 16]⟩
abbrev S16x117x77x768 : Shape := ⟨4, ![16, 117, 77, 768]⟩
abbrev S1x77x768 : Shape := ⟨3, ![1, 77, 768]⟩
abbrev S39x16x768 : Shape := ⟨3, ![39, 16, 768]⟩
abbrev S1x77x16 : Shape := ⟨3, ![1, 77, 16]⟩
abbrev S1x1x77 : Shape := ⟨3, ![1, 1, 77]⟩
abbrev S1x39x77x768 : Shape := ⟨4, ![1, 39, 77, 768]⟩
abbrev S77x768 : Shape := ⟨2, ![77, 768]⟩
abbrev S77x16 : Shape := ⟨2, ![77, 16]⟩
abbrev S77x1 : Shape := ⟨2, ![77, 1]⟩
abbrev S1x16x768 : Shape := ⟨3, ![1, 16, 768]⟩
abbrev S16x768 : Shape := ⟨2, ![16, 768]⟩
abbrev S1x1x77x768 : Shape := ⟨4, ![1, 1, 77, 768]⟩

abbrev nBuf : Space → Nat
  | .hbm => 94
  | .vmem => 12
  | .smem => 1
  | _ => 0

abbrev bufTy : (tb : Table) → Fin (tcTables nBuf tb) → BufTy
  | .hbm, ⟨0, _⟩ => ⟨S16x77, .i32⟩
  | .hbm, ⟨1, _⟩ => ⟨S16, .i32⟩
  | .hbm, ⟨2, _⟩ => ⟨S117x16x768, .f32⟩
  | .hbm, ⟨3, _⟩ => ⟨S49408x768, .f32⟩
  | .hbm, ⟨4, _⟩ => ⟨S1x16, .i32⟩
  | .hbm, ⟨5, _⟩ => ⟨S16x1, .i32⟩
  | .hbm, ⟨6, _⟩ => ⟨S77, .i32⟩
  | .hbm, ⟨7, _⟩ => ⟨S1x77, .i32⟩
  | .hbm, ⟨8, _⟩ => ⟨S16x77, .i32⟩
  | .hbm, ⟨9, _⟩ => ⟨S16x77, .i32⟩
  | .hbm, ⟨10, _⟩ => ⟨S16x77, .i1⟩
  | .hbm, ⟨11, _⟩ => ⟨S_, .i32⟩
  | .hbm, ⟨12, _⟩ => ⟨S16x1, .i32⟩
  | .hbm, ⟨13, _⟩ => ⟨S16x1, .i32⟩
  | .hbm, ⟨14, _⟩ => ⟨S16x77, .i32⟩
  | .hbm, ⟨15, _⟩ => ⟨S16x77, .i32⟩
  | .hbm, ⟨16, _⟩ => ⟨S16x77, .i1⟩
  | .hbm, ⟨17, _⟩ => ⟨S16x77, .i1⟩
  | .hbm, ⟨18, _⟩ => ⟨S16x77, .i32⟩
  | .hbm, ⟨19, _⟩ => ⟨S16x77, .i32⟩
  | .hbm, ⟨20, _⟩ => ⟨S16x77, .i1⟩
  | .hbm, ⟨21, _⟩ => ⟨S_, .i32⟩
  | .hbm, ⟨22, _⟩ => ⟨S1x77, .i32⟩
  | .hbm, ⟨23, _⟩ => ⟨S1x77, .i32⟩
  | .hbm, ⟨24, _⟩ => ⟨S16x77, .i32⟩
  | .hbm, ⟨25, _⟩ => ⟨S16x77, .i32⟩
  | .hbm, ⟨26, _⟩ => ⟨S16x77, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S16x77, .i32⟩
  | .hbm, ⟨31, _⟩ => ⟨S16x77, .i32⟩
  | .hbm, ⟨32, _⟩ => ⟨S_, .i32⟩
  | .hbm, ⟨33, _⟩ => ⟨S16x77, .i32⟩
  | .hbm, ⟨34, _⟩ => ⟨S16x77, .i32⟩
  | .hbm, ⟨35, _⟩ => ⟨S16x77, .i32⟩
  | .hbm, ⟨36, _⟩ => ⟨S16x77, .i32⟩
  | .hbm, ⟨37, _⟩ => ⟨S16x77, .i32⟩
  | .hbm, ⟨38, _⟩ => ⟨S_, .i32⟩
  | .hbm, ⟨39, _⟩ => ⟨S16x77, .i32⟩
  | .hbm, ⟨40, _⟩ => ⟨S16x77, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S16x77, .i32⟩
  | .hbm, ⟨45, _⟩ => ⟨S16x77, .i32⟩
  | .hbm, ⟨46, _⟩ => ⟨S_, .i32⟩
  | .hbm, ⟨47, _⟩ => ⟨S16x77, .i32⟩
  | .hbm, ⟨48, _⟩ => ⟨S16x77, .i32⟩
  | .hbm, ⟨49, _⟩ => ⟨S_, .i32⟩
  | .hbm, ⟨50, _⟩ => ⟨S16x77, .i32⟩
  | .hbm, ⟨51, _⟩ => ⟨S16x77, .i1⟩
  | .hbm, ⟨52, _⟩ => ⟨S_, .i32⟩
  | .hbm, ⟨53, _⟩ => ⟨S16x77, .i32⟩
  | .hbm, ⟨54, _⟩ => ⟨S16x77, .i32⟩
  | .hbm, ⟨55, _⟩ => ⟨S16x77, .i32⟩
  | .hbm, ⟨56, _⟩ => ⟨S16x77x1, .i32⟩
  | .hbm, ⟨57, _⟩ => ⟨S1, .i32⟩
  | .hbm, ⟨58, _⟩ => ⟨S_, .i32⟩
  | .hbm, ⟨59, _⟩ => ⟨S16x77x1, .i32⟩
  | .hbm, ⟨60, _⟩ => ⟨S16x77x1, .i1⟩
  | .hbm, ⟨61, _⟩ => ⟨S1x1x1, .i32⟩
  | .hbm, ⟨62, _⟩ => ⟨S16x77x1, .i32⟩
  | .hbm, ⟨63, _⟩ => ⟨S16x77x1, .i1⟩
  | .hbm, ⟨64, _⟩ => ⟨S16x77x1, .i1⟩
  | .hbm, ⟨65, _⟩ => ⟨S_, .i1⟩
  | .hbm, ⟨66, _⟩ => ⟨S16x77, .i1⟩
  | .hbm, ⟨67, _⟩ => ⟨S16x77, .i32⟩
  | .hbm, ⟨68, _⟩ => ⟨S_, .i32⟩
  | .hbm, ⟨69, _⟩ => ⟨S16x77, .i32⟩
  | .hbm, ⟨70, _⟩ => ⟨S16x77, .i32⟩
  | .hbm, ⟨71, _⟩ => ⟨S16, .i32⟩
  | .hbm, ⟨72, _⟩ => ⟨S_, .i32⟩
  | .hbm, ⟨73, _⟩ => ⟨S16x77, .i32⟩
  | .hbm, ⟨74, _⟩ => ⟨S16x77, .i1⟩
  | .hbm, ⟨75, _⟩ => ⟨S_, .i32⟩
  | .hbm, ⟨76, _⟩ => ⟨S16x77, .i32⟩
  | .hbm, ⟨77, _⟩ => ⟨S16x77, .i32⟩
  | .hbm, ⟨78, _⟩ => ⟨S16x77, .i32⟩
  | .hbm, ⟨79, _⟩ => ⟨S16x77x1, .i32⟩
  | .hbm, ⟨80, _⟩ => ⟨S16x77, .i32⟩
  | .hbm, ⟨81, _⟩ => ⟨S16x77, .i32⟩
  | .hbm, ⟨82, _⟩ => ⟨S1232x1x768, .f32⟩
  | .hbm, ⟨83, _⟩ => ⟨S16x77x768, .f32⟩
  | .hbm, ⟨84, _⟩ => ⟨S16x77, .f32⟩
  | .hbm, ⟨85, _⟩ => ⟨S16x1x77, .f32⟩
  | .hbm, ⟨86, _⟩ => ⟨S16, .i32⟩
  | .hbm, ⟨87, _⟩ => ⟨S1x1x16, .i32⟩
  | .hbm, ⟨88, _⟩ => ⟨S16x77x1, .i32⟩
  | .hbm, ⟨89, _⟩ => ⟨S16x77x16, .i32⟩
  | .hbm, ⟨90, _⟩ => ⟨S16x77x16, .i32⟩
  | .hbm, ⟨91, _⟩ => ⟨S16x77x16, .i1⟩
  | .hbm, ⟨92, _⟩ => ⟨S16x77x16, .f32⟩
  | .hbm, ⟨93, _⟩ => ⟨S16x117x77x768, .f32⟩
  | .local _ .vmem, ⟨0, _⟩ => ⟨S16x1x768, .f32⟩
  | .local _ .vmem, ⟨1, _⟩ => ⟨S16x1x768, .f32⟩
  | .local _ .vmem, ⟨2, _⟩ => ⟨S1x77x768, .f32⟩
  | .local _ .vmem, ⟨3, _⟩ => ⟨S1x77x768, .f32⟩
  | .local _ .vmem, ⟨4, _⟩ => ⟨S39x16x768, .f32⟩
  | .local _ .vmem, ⟨5, _⟩ => ⟨S39x16x768, .f32⟩
  | .local _ .vmem, ⟨6, _⟩ => ⟨S1x77x16, .f32⟩
  | .local _ .vmem, ⟨7, _⟩ => ⟨S1x77x16, .f32⟩
  | .local _ .vmem, ⟨8, _⟩ => ⟨S1x1x77, .f32⟩
  | .local _ .vmem, ⟨9, _⟩ => ⟨S1x1x77, .f32⟩
  | .local _ .vmem, ⟨10, _⟩ => ⟨S1x39x77x768, .f32⟩
  | .local _ .vmem, ⟨11, _⟩ => ⟨S1x39x77x768, .f32⟩
  | .local _ .smem, ⟨0, _⟩ => ⟨S1232, .i32⟩
  | _, _ => ⟨S16x77, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_c_1 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_c_5 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v24 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_c_4 : Ref sig .tc := ⟨.hbm, 68, rfl⟩
abbrev main_call3_v14 : Ref sig .tc := ⟨.hbm, 69, rfl⟩
abbrev main_v25 : Ref sig .tc := ⟨.hbm, 70, rfl⟩
abbrev main_v26 : Ref sig .tc := ⟨.hbm, 71, rfl⟩
abbrev main_c_6 : Ref sig .tc := ⟨.hbm, 72, rfl⟩
abbrev main_v27 : Ref sig .tc := ⟨.hbm, 73, rfl⟩
abbrev main_v28 : Ref sig .tc := ⟨.hbm, 74, rfl⟩
abbrev main_c_7 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v35 : Ref sig .tc := ⟨.smem, 0, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27

abbrev nD : Nat := 1
abbrev τ : Topo := Topo.v7x

variable {F : FTy → Type} [FloatOps F]

abbrev grid0 : Pipeline.Grid := ⟨1, ![77], ![false]⟩

abbrev pre0 : Pipeline.Prefetch sig := ⟨1, ![main_v35.idx], fun | 0 => main_v35.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_4 : BitVec 32 := 0#32
  ![v3.toNat, 0]

def k0_off3 (i : grid0.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v9 : BitVec 32 := Scalar.addi v0 c1_i32
  let v10 : Index := Scalar.indexCast v9
  ![v10.toNat]
def k0_off4 (v11 : BitVec 32) : Fin 2 → Nat :=
  let c0_i32_9 : BitVec 32 := 0#32
  ![v11.toNat, 0]

def k0_off5 (i : grid0.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v17 : BitVec 32 := Scalar.addi v0 c2_i32
  let v18 : Index := Scalar.indexCast v17
  ![v18.toNat]
def k0_off6 (v19 : BitVec 32) : Fin 2 → Nat :=
  let c0_i32_14 : BitVec 32 := 0#32
  ![v19.toNat, 0]

def k0_off7 (i : grid0.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v25 : BitVec 32 := Scalar.addi v0 c3_i32
  let v26 : Index := Scalar.indexCast v25
  ![v26.toNat]
def k0_off8 (v27 : BitVec 32) : Fin 2 → Nat :=
  let c0_i32_19 : BitVec 32 := 0#32
  ![v27.toNat, 0]

def k0_off9 (i : grid0.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v33 : BitVec 32 := Scalar.addi v0 c4_i32
  let v34 : Index := Scalar.indexCast v33
  ![v34.toNat]
def k0_off10 (v35 : BitVec 32) : Fin 2 → Nat :=
  let c0_i32_24 : BitVec 32 := 0#32
  ![v35.toNat, 0]

def k0_off11 (i : grid0.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v41 : BitVec 32 := Scalar.addi v0 c5_i32
  let v42 : Index := Scalar.indexCast v41
  ![v42.toNat]
def k0_off12 (v43 : BitVec 32) : Fin 2 → Nat :=
  let c0_i32_29 : BitVec 32 := 0#32
  ![v43.toNat, 0]

def k0_off13 (i : grid0.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v49 : BitVec 32 := Scalar.addi v0 c6_i32
  let v50 : Index := Scalar.indexCast v49
  ![v50.toNat]
def k0_off14 (v51 : BitVec 32) : Fin 2 → Nat :=
  let c0_i32_34 : BitVec 32 := 0#32
  ![v51.toNat, 0]

def k0_off15 (i : grid0.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v57 : BitVec 32 := Scalar.addi v0 c7_i32
  let v58 : Index := Scalar.indexCast v57
  ![v58.toNat]
def k0_off16 (v59 : BitVec 32) : Fin 2 → Nat :=
  let c0_i32_39 : BitVec 32 := 0#32
  ![v59.toNat, 0]

def k0_off17 (i : grid0.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v65 : BitVec 32 := Scalar.addi v0 c8_i32
  let v66 : Index := Scalar.indexCast v65
  ![v66.toNat]
def k0_off18 (v67 : BitVec 32) : Fin 2 → Nat :=
  let c0_i32_44 : BitVec 32 := 0#32
  ![v67.toNat, 0]

def k0_off19 (i : grid0.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v73 : BitVec 32 := Scalar.addi v0 c9_i32
  let v74 : Index := Scalar.indexCast v73
  ![v74.toNat]
def k0_off20 (v75 : BitVec 32) : Fin 2 → Nat :=
  let c0_i32_49 : BitVec 32 := 0#32
  ![v75.toNat, 0]

def k0_off21 (i : grid0.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v81 : BitVec 32 := Scalar.addi v0 c10_i32
  let v82 : Index := Scalar.indexCast v81
  ![v82.toNat]
def k0_off22 (v83 : BitVec 32) : Fin 2 → Nat :=
  let c0_i32_54 : BitVec 32 := 0#32
  ![v83.toNat, 0]

def k0_off23 (i : grid0.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v89 : BitVec 32 := Scalar.addi v0 c11_i32
  let v90 : Index := Scalar.indexCast v89
  ![v90.toNat]
def k0_off24 (v91 : BitVec 32) : Fin 2 → Nat :=
  let c0_i32_59 : BitVec 32 := 0#32
  ![v91.toNat, 0]

def k0_off25 (i : grid0.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v97 : BitVec 32 := Scalar.addi v0 c12_i32
  let v98 : Index := Scalar.indexCast v97
  ![v98.toNat]
def k0_off26 (v99 : BitVec 32) : Fin 2 → Nat :=
  let c0_i32_64 : BitVec 32 := 0#32
  ![v99.toNat, 0]

def k0_off27 (i : grid0.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v105 : BitVec 32 := Scalar.addi v0 c13_i32
  let v106 : Index := Scalar.indexCast v105
  ![v106.toNat]
def k0_off28 (v107 : BitVec 32) : Fin 2 → Nat :=
  let c0_i32_69 : BitVec 32 := 0#32
  ![v107.toNat, 0]

def k0_off29 (i : grid0.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v113 : BitVec 32 := Scalar.addi v0 c14_i32
  let v114 : Index := Scalar.indexCast v113
  ![v114.toNat]
def k0_off30 (v115 : BitVec 32) : Fin 2 → Nat :=
  let c0_i32_74 : BitVec 32 := 0#32
  ![v115.toNat, 0]

def k0_off31 (i : grid0.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v121 : BitVec 32 := Scalar.addi v0 c15_i32
  let v122 : Index := Scalar.indexCast v121
  ![v122.toNat]
def k0_off32 (v123 : BitVec 32) : Fin 2 → Nat :=
  let c0_i32_79 : BitVec 32 := 0#32
  ![v123.toNat, 0]

def k0_chk16 (v123 : BitVec 32) : Prop :=
  (∀ a, (k0_off32 v123) a + S1x768.size a ≤ S49408x768.size a)
instance k0_chk16.dec : ∀ (v123 : BitVec 32), Decidable (k0_chk16 v123) := fun v123 => decidable_of_iff' _ (Iff.of_eq (k0_chk16.eq_1 v123))
theorem k0_off32_inb : ∀ (v123 : BitVec 32) (k0_hw16 : k0_chk16 v123), ∀ a, (k0_off32 v123) a + S1x768.size a ≤ S49408x768.size a := fun v123 k0_hw16 => k0_hw16

def k0_off33 (v3 : BitVec 32) : Fin 2 → Nat :=
  let c0_i32_84 : BitVec 32 := 0#32
  ![v3.toNat, 0]

def k0_chk1 (v3 : BitVec 32) : Prop :=
  (∀ a, (k0_off2 v3) a + S1x768.size a ≤ S49408x768.size a) ∧
  (∀ a, (k0_off33 v3) a + S1x768.size a ≤ S49408x768.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x768.size a ≤ S49408x768.size a := fun v3 k0_hw1 => k0_hw1.1
theorem k0_off33_inb : ∀ (v3 : BitVec 32) (k0_hw1 : k0_chk1 v3), ∀ a, (k0_off33 v3) a + S1x768.size a ≤ S49408x768.size a := fun v3 k0_hw1 => k0_hw1.2

def k0_off34 (v11 : BitVec 32) : Fin 2 → Nat :=
  let c0_i32_89 : BitVec 32 := 0#32
  ![v11.toNat, 0]

def k0_chk2 (v11 : BitVec 32) : Prop :=
  (∀ a, (k0_off4 v11) a + S1x768.size a ≤ S49408x768.size a) ∧
  (∀ a, (k0_off34 v11) a + S1x768.size a ≤ S49408x768.size a)
instance k0_chk2.dec : ∀ (v11 : BitVec 32), Decidable (k0_chk2 v11) := fun v11 => decidable_of_iff' _ (Iff.of_eq (k0_chk2.eq_1 v11))
theorem k0_off4_inb : ∀ (v11 : BitVec 32) (k0_hw2 : k0_chk2 v11), ∀ a, (k0_off4 v11) a + S1x768.size a ≤ S49408x768.size a := fun v11 k0_hw2 => k0_hw2.1
theorem k0_off34_inb : ∀ (v11 : BitVec 32) (k0_hw2 : k0_chk2 v11), ∀ a, (k0_off34 v11) a + S1x768.size a ≤ S49408x768.size a := fun v11 k0_hw2 => k0_hw2.2

def k0_off35 (v19 : BitVec 32) : Fin 2 → Nat :=
  let c0_i32_94 : BitVec 32 := 0#32
  ![v19.toNat, 0]

def k0_chk3 (v19 : BitVec 32) : Prop :=
  (∀ a, (k0_off6 v19) a + S1x768.size a ≤ S49408x768.size a) ∧
  (∀ a, (k0_off35 v19) a + S1x768.size a ≤ S49408x768.size a)
instance k0_chk3.dec : ∀ (v19 : BitVec 32), Decidable (k0_chk3 v19) := fun v19 => decidable_of_iff' _ (Iff.of_eq (k0_chk3.eq_1 v19))
theorem k0_off6_inb : ∀ (v19 : BitVec 32) (k0_hw3 : k0_chk3 v19), ∀ a, (k0_off6 v19) a + S1x768.size a ≤ S49408x768.size a := fun v19 k0_hw3 => k0_hw3.1
theorem k0_off35_inb : ∀ (v19 : BitVec 32) (k0_hw3 : k0_chk3 v19), ∀ a, (k0_off35 v19) a + S1x768.size a ≤ S49408x768.size a := fun v19 k0_hw3 => k0_hw3.2

def k0_off36 (v27 : BitVec 32) : Fin 2 → Nat :=
  let c0_i32_99 : BitVec 32 := 0#32
  ![v27.toNat, 0]

def k0_chk4 (v27 : BitVec 32) : Prop :=
  (∀ a, (k0_off8 v27) a + S1x768.size a ≤ S49408x768.size a) ∧
  (∀ a, (k0_off36 v27) a + S1x768.size a ≤ S49408x768.size a)
instance k0_chk4.dec : ∀ (v27 : BitVec 32), Decidable (k0_chk4 v27) := fun v27 => decidable_of_iff' _ (Iff.of_eq (k0_chk4.eq_1 v27))
theorem k0_off8_inb : ∀ (v27 : BitVec 32) (k0_hw4 : k0_chk4 v27), ∀ a, (k0_off8 v27) a + S1x768.size a ≤ S49408x768.size a := fun v27 k0_hw4 => k0_hw4.1
theorem k0_off36_inb : ∀ (v27 : BitVec 32) (k0_hw4 : k0_chk4 v27), ∀ a, (k0_off36 v27) a + S1x768.size a ≤ S49408x768.size a := fun v27 k0_hw4 => k0_hw4.2

def k0_off37 (v35 : BitVec 32) : Fin 2 → Nat :=
  let c0_i32_104 : BitVec 32 := 0#32
  ![v35.toNat, 0]

def k0_chk5 (v35 : BitVec 32) : Prop :=
  (∀ a, (k0_off10 v35) a + S1x768.size a ≤ S49408x768.size a) ∧
  (∀ a, (k0_off37 v35) a + S1x768.size a ≤ S49408x768.size a)
instance k0_chk5.dec : ∀ (v35 : BitVec 32), Decidable (k0_chk5 v35) := fun v35 => decidable_of_iff' _ (Iff.of_eq (k0_chk5.eq_1 v35))
theorem k0_off10_inb : ∀ (v35 : BitVec 32) (k0_hw5 : k0_chk5 v35), ∀ a, (k0_off10 v35) a + S1x768.size a ≤ S49408x768.size a := fun v35 k0_hw5 => k0_hw5.1
theorem k0_off37_inb : ∀ (v35 : BitVec 32) (k0_hw5 : k0_chk5 v35), ∀ a, (k0_off37 v35) a + S1x768.size a ≤ S49408x768.size a := fun v35 k0_hw5 => k0_hw5.2

def k0_off38 (v43 : BitVec 32) : Fin 2 → Nat :=
  let c0_i32_109 : BitVec 32 := 0#32
  ![v43.toNat, 0]

def k0_chk6 (v43 : BitVec 32) : Prop :=
  (∀ a, (k0_off12 v43) a + S1x768.size a ≤ S49408x768.size a) ∧
  (∀ a, (k0_off38 v43) a + S1x768.size a ≤ S49408x768.size a)
instance k0_chk6.dec : ∀ (v43 : BitVec 32), Decidable (k0_chk6 v43) := fun v43 => decidable_of_iff' _ (Iff.of_eq (k0_chk6.eq_1 v43))
theorem k0_off12_inb : ∀ (v43 : BitVec 32) (k0_hw6 : k0_chk6 v43), ∀ a, (k0_off12 v43) a + S1x768.size a ≤ S49408x768.size a := fun v43 k0_hw6 => k0_hw6.1
theorem k0_off38_inb : ∀ (v43 : BitVec 32) (k0_hw6 : k0_chk6 v43), ∀ a, (k0_off38 v43) a + S1x768.size a ≤ S49408x768.size a := fun v43 k0_hw6 => k0_hw6.2

def k0_off39 (v51 : BitVec 32) : Fin 2 → Nat :=
  let c0_i32_114 : BitVec 32 := 0#32
  ![v51.toNat, 0]

def k0_chk7 (v51 : BitVec 32) : Prop :=
  (∀ a, (k0_off14 v51) a + S1x768.size a ≤ S49408x768.size a) ∧
  (∀ a, (k0_off39 v51) a + S1x768.size a ≤ S49408x768.size a)
instance k0_chk7.dec : ∀ (v51 : BitVec 32), Decidable (k0_chk7 v51) := fun v51 => decidable_of_iff' _ (Iff.of_eq (k0_chk7.eq_1 v51))
theorem k0_off14_inb : ∀ (v51 : BitVec 32) (k0_hw7 : k0_chk7 v51), ∀ a, (k0_off14 v51) a + S1x768.size a ≤ S49408x768.size a := fun v51 k0_hw7 => k0_hw7.1
theorem k0_off39_inb : ∀ (v51 : BitVec 32) (k0_hw7 : k0_chk7 v51), ∀ a, (k0_off39 v51) a + S1x768.size a ≤ S49408x768.size a := fun v51 k0_hw7 => k0_hw7.2

def k0_off40 (v59 : BitVec 32) : Fin 2 → Nat :=
  let c0_i32_119 : BitVec 32 := 0#32
  ![v59.toNat, 0]

def k0_chk8 (v59 : BitVec 32) : Prop :=
  (∀ a, (k0_off16 v59) a + S1x768.size a ≤ S49408x768.size a) ∧
  (∀ a, (k0_off40 v59) a + S1x768.size a ≤ S49408x768.size a)
instance k0_chk8.dec : ∀ (v59 : BitVec 32), Decidable (k0_chk8 v59) := fun v59 => decidable_of_iff' _ (Iff.of_eq (k0_chk8.eq_1 v59))
theorem k0_off16_inb : ∀ (v59 : BitVec 32) (k0_hw8 : k0_chk8 v59), ∀ a, (k0_off16 v59) a + S1x768.size a ≤ S49408x768.size a := fun v59 k0_hw8 => k0_hw8.1
theorem k0_off40_inb : ∀ (v59 : BitVec 32) (k0_hw8 : k0_chk8 v59), ∀ a, (k0_off40 v59) a + S1x768.size a ≤ S49408x768.size a := fun v59 k0_hw8 => k0_hw8.2

def k0_off41 (v67 : BitVec 32) : Fin 2 → Nat :=
  let c0_i32_124 : BitVec 32 := 0#32
  ![v67.toNat, 0]

def k0_chk9 (v67 : BitVec 32) : Prop :=
  (∀ a, (k0_off18 v67) a + S1x768.size a ≤ S49408x768.size a) ∧
  (∀ a, (k0_off41 v67) a + S1x768.size a ≤ S49408x768.size a)
instance k0_chk9.dec : ∀ (v67 : BitVec 32), Decidable (k0_chk9 v67) := fun v67 => decidable_of_iff' _ (Iff.of_eq (k0_chk9.eq_1 v67))
theorem k0_off18_inb : ∀ (v67 : BitVec 32) (k0_hw9 : k0_chk9 v67), ∀ a, (k0_off18 v67) a + S1x768.size a ≤ S49408x768.size a := fun v67 k0_hw9 => k0_hw9.1
theorem k0_off41_inb : ∀ (v67 : BitVec 32) (k0_hw9 : k0_chk9 v67), ∀ a, (k0_off41 v67) a + S1x768.size a ≤ S49408x768.size a := fun v67 k0_hw9 => k0_hw9.2

def k0_off42 (v75 : BitVec 32) : Fin 2 → Nat :=
  let c0_i32_129 : BitVec 32 := 0#32
  ![v75.toNat, 0]

def k0_chk10 (v75 : BitVec 32) : Prop :=
  (∀ a, (k0_off20 v75) a + S1x768.size a ≤ S49408x768.size a) ∧
  (∀ a, (k0_off42 v75) a + S1x768.size a ≤ S49408x768.size a)
instance k0_chk10.dec : ∀ (v75 : BitVec 32), Decidable (k0_chk10 v75) := fun v75 => decidable_of_iff' _ (Iff.of_eq (k0_chk10.eq_1 v75))
theorem k0_off20_inb : ∀ (v75 : BitVec 32) (k0_hw10 : k0_chk10 v75), ∀ a, (k0_off20 v75) a + S1x768.size a ≤ S49408x768.size a := fun v75 k0_hw10 => k0_hw10.1
theorem k0_off42_inb : ∀ (v75 : BitVec 32) (k0_hw10 : k0_chk10 v75), ∀ a, (k0_off42 v75) a + S1x768.size a ≤ S49408x768.size a := fun v75 k0_hw10 => k0_hw10.2

def k0_off43 (v83 : BitVec 32) : Fin 2 → Nat :=
  let c0_i32_134 : BitVec 32 := 0#32
  ![v83.toNat, 0]

def k0_chk11 (v83 : BitVec 32) : Prop :=
  (∀ a, (k0_off22 v83) a + S1x768.size a ≤ S49408x768.size a) ∧
  (∀ a, (k0_off43 v83) a + S1x768.size a ≤ S49408x768.size a)
instance k0_chk11.dec : ∀ (v83 : BitVec 32), Decidable (k0_chk11 v83) := fun v83 => decidable_of_iff' _ (Iff.of_eq (k0_chk11.eq_1 v83))
theorem k0_off22_inb : ∀ (v83 : BitVec 32) (k0_hw11 : k0_chk11 v83), ∀ a, (k0_off22 v83) a + S1x768.size a ≤ S49408x768.size a := fun v83 k0_hw11 => k0_hw11.1
theorem k0_off43_inb : ∀ (v83 : BitVec 32) (k0_hw11 : k0_chk11 v83), ∀ a, (k0_off43 v83) a + S1x768.size a ≤ S49408x768.size a := fun v83 k0_hw11 => k0_hw11.2

def k0_off44 (v91 : BitVec 32) : Fin 2 → Nat :=
  let c0_i32_139 : BitVec 32 := 0#32
  ![v91.toNat, 0]

def k0_chk12 (v91 : BitVec 32) : Prop :=
  (∀ a, (k0_off24 v91) a + S1x768.size a ≤ S49408x768.size a) ∧
  (∀ a, (k0_off44 v91) a + S1x768.size a ≤ S49408x768.size a)
instance k0_chk12.dec : ∀ (v91 : BitVec 32), Decidable (k0_chk12 v91) := fun v91 => decidable_of_iff' _ (Iff.of_eq (k0_chk12.eq_1 v91))
theorem k0_off24_inb : ∀ (v91 : BitVec 32) (k0_hw12 : k0_chk12 v91), ∀ a, (k0_off24 v91) a + S1x768.size a ≤ S49408x768.size a := fun v91 k0_hw12 => k0_hw12.1
theorem k0_off44_inb : ∀ (v91 : BitVec 32) (k0_hw12 : k0_chk12 v91), ∀ a, (k0_off44 v91) a + S1x768.size a ≤ S49408x768.size a := fun v91 k0_hw12 => k0_hw12.2

def k0_off45 (v99 : BitVec 32) : Fin 2 → Nat :=
  let c0_i32_144 : BitVec 32 := 0#32
  ![v99.toNat, 0]

def k0_chk13 (v99 : BitVec 32) : Prop :=
  (∀ a, (k0_off26 v99) a + S1x768.size a ≤ S49408x768.size a) ∧
  (∀ a, (k0_off45 v99) a + S1x768.size a ≤ S49408x768.size a)
instance k0_chk13.dec : ∀ (v99 : BitVec 32), Decidable (k0_chk13 v99) := fun v99 => decidable_of_iff' _ (Iff.of_eq (k0_chk13.eq_1 v99))
theorem k0_off26_inb : ∀ (v99 : BitVec 32) (k0_hw13 : k0_chk13 v99), ∀ a, (k0_off26 v99) a + S1x768.size a ≤ S49408x768.size a := fun v99 k0_hw13 => k0_hw13.1
theorem k0_off45_inb : ∀ (v99 : BitVec 32) (k0_hw13 : k0_chk13 v99), ∀ a, (k0_off45 v99) a + S1x768.size a ≤ S49408x768.size a := fun v99 k0_hw13 => k0_hw13.2

def k0_off46 (v107 : BitVec 32) : Fin 2 → Nat :=
  let c0_i32_149 : BitVec 32 := 0#32
  ![v107.toNat, 0]

def k0_chk14 (v107 : BitVec 32) : Prop :=
  (∀ a, (k0_off28 v107) a + S1x768.size a ≤ S49408x768.size a) ∧
  (∀ a, (k0_off46 v107) a + S1x768.size a ≤ S49408x768.size a)
instance k0_chk14.dec : ∀ (v107 : BitVec 32), Decidable (k0_chk14 v107) := fun v107 => decidable_of_iff' _ (Iff.of_eq (k0_chk14.eq_1 v107))
theorem k0_off28_inb : ∀ (v107 : BitVec 32) (k0_hw14 : k0_chk14 v107), ∀ a, (k0_off28 v107) a + S1x768.size a ≤ S49408x768.size a := fun v107 k0_hw14 => k0_hw14.1
theorem k0_off46_inb : ∀ (v107 : BitVec 32) (k0_hw14 : k0_chk14 v107), ∀ a, (k0_off46 v107) a + S1x768.size a ≤ S49408x768.size a := fun v107 k0_hw14 => k0_hw14.2

def k0_off47 (v115 : BitVec 32) : Fin 2 → Nat :=
  let c0_i32_154 : BitVec 32 := 0#32
  ![v115.toNat, 0]

def k0_chk15 (v115 : BitVec 32) : Prop :=
  (∀ a, (k0_off30 v115) a + S1x768.size a ≤ S49408x768.size a) ∧
  (∀ a, (k0_off47 v115) a + S1x768.size a ≤ S49408x768.size a)
instance k0_chk15.dec : ∀ (v115 : BitVec 32), Decidable (k0_chk15 v115) := fun v115 => decidable_of_iff' _ (Iff.of_eq (k0_chk15.eq_1 v115))
theorem k0_off30_inb : ∀ (v115 : BitVec 32) (k0_hw15 : k0_chk15 v115), ∀ a, (k0_off30 v115) a + S1x768.size a ≤ S49408x768.size a := fun v115 k0_hw15 => k0_hw15.1
theorem k0_off47_inb : ∀ (v115 : BitVec 32) (k0_hw15 : k0_chk15 v115), ∀ a, (k0_off47 v115) a + S1x768.size a ≤ S49408x768.size a := fun v115 k0_hw15 => k0_hw15.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨2, ![3, 16], ![false, false]⟩

@[reducible] def k1_t1_loop : Scf.Loop 32 :=
  let c0_i32 : BitVec 32 := 0#32
  let c39_i32 : BitVec 32 := 39#32
  let v9 : BitVec 32 := Scalar.addi c0_i32 c39_i32
  let c1_i32 : BitVec 32 := 1#32
  ⟨c0_i32, v9, c1_i32⟩
def k1_off1 (k1_t1 : Fin k1_t1_loop.trips) : Fin 3 → Nat :=
  let c0_i32 : BitVec 32 := 0#32
  let c1_i32 : BitVec 32 := 1#32
  let arg7 : BitVec 32 := Scf.iv c0_i32 c1_i32 k1_t1
  let v10 : Index := Scalar.indexCast arg7
  let c0_9 : Index := 0#32
  let c0_10 : Index := 0#32
  ![v10.toNat, 0, 0]
def k1_off2 (k1_t1 : Fin k1_t1_loop.trips) : Fin 4 → Nat :=
  let c0_12 : Index := 0#32
  let c0_i32 : BitVec 32 := 0#32
  let c1_i32 : BitVec 32 := 1#32
  let arg7 : BitVec 32 := Scf.iv c0_i32 c1_i32 k1_t1
  let v17 : Index := Scalar.indexCast arg7
  let c0_13 : Index := 0#32
  let c0_14 : Index := 0#32
  ![0, v17.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x77x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S39x16x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x77x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x77 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x39x77x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bcast_S16_S16x1_0 : S16.BroadcastsInDim S16x1 (![0] : Fin 1 → Fin S16x1.rank)
  bcast_S77_S1x77_1 : S77.BroadcastsInDim S1x77 (![1] : Fin 1 → Fin S1x77.rank)
  bcast_S1x77_S16x77_0_1 : S1x77.BroadcastsInDim S16x77 (![0, 1] : Fin 2 → Fin S16x77.rank)
  bcast_S16x1_S16x77_0_1 : S16x1.BroadcastsInDim S16x77 (![0, 1] : Fin 2 → Fin S16x77.rank)
  bcast_S_S16x1 : S_.BroadcastsInDim S16x1 (![] : Fin 0 → Fin S16x1.rank)
  bcast_S_S1x77 : S_.BroadcastsInDim S1x77 (![] : Fin 0 → Fin S1x77.rank)
  bcast_S_S16x77 : S_.BroadcastsInDim S16x77 (![] : Fin 0 → Fin S16x77.rank)
  shapeCasts_S16x77_S16x77x1 : S16x77.ShapeCasts S16x77x1
  bcast_S_S16x77x1 : S_.BroadcastsInDim S16x77x1 (![] : Fin 0 → Fin S16x77x1.rank)
  bcast_S1_S1x1x1_2 : S1.BroadcastsInDim S1x1x1 (![2] : Fin 1 → Fin S1x1x1.rank)
  bcast_S1x1x1_S16x77x1_0_1_2 : S1x1x1.BroadcastsInDim S16x77x1 (![0, 1, 2] : Fin 3 → Fin S16x77x1.rank)
  reducesTo_S16x77x1_S16x77_d2 : S16x77x1.ReducesTo [2] S16x77
  h_S_ : 0 < S_.numel
  shapeCasts_S1x16_S16 : S1x16.ShapeCasts S16
  bcast_S16x77_S16x77x1_0_1 : S16x77.BroadcastsInDim S16x77x1 (![0, 1] : Fin 2 → Fin S16x77x1.rank)
  shapeCasts_S16x77_S1232 : S16x77.ShapeCasts S1232
  numel1_S1 : S1.numel = 1
  inb_S16_S1_0 : ∀ a, (![0] : Fin 1 → Nat) a + S1.size a ≤ S16.size a
  squeezes_S1_S_ : S1.Squeezes S_
  inb_S16x1x768_S1x1x768_0_0_0 : ∀ a, (![0, 0, 0] : Fin 3 → Nat) a + S1x1x768.size a ≤ S16x1x768.size a
  squeezes_S1x1x768_S1x768 : S1x1x768.Squeezes S1x768
  inb_S16_S1_1 : ∀ a, (![1] : Fin 1 → Nat) a + S1.size a ≤ S16.size a
  inb_S16x1x768_S1x1x768_1_0_0 : ∀ a, (![1, 0, 0] : Fin 3 → Nat) a + S1x1x768.size a ≤ S16x1x768.size a
  inb_S16_S1_2 : ∀ a, (![2] : Fin 1 → Nat) a + S1.size a ≤ S16.size a
  inb_S16x1x768_S1x1x768_2_0_0 : ∀ a, (![2, 0, 0] : Fin 3 → Nat) a + S1x1x768.size a ≤ S16x1x768.size a
  inb_S16_S1_3 : ∀ a, (![3] : Fin 1 → Nat) a + S1.size a ≤ S16.size a
  inb_S16x1x768_S1x1x768_3_0_0 : ∀ a, (![3, 0, 0] : Fin 3 → Nat) a + S1x1x768.size a ≤ S16x1x768.size a
  inb_S16_S1_4 : ∀ a, (![4] : Fin 1 → Nat) a + S1.size a ≤ S16.size a
  inb_S16x1x768_S1x1x768_4_0_0 : ∀ a, (![4, 0, 0] : Fin 3 → Nat) a + S1x1x768.size a ≤ S16x1x768.size a
  inb_S16_S1_5 : ∀ a, (![5] : Fin 1 → Nat) a + S1.size a ≤ S16.size a
  inb_S16x1x768_S1x1x768_5_0_0 : ∀ a, (![5, 0, 0] : Fin 3 → Nat) a + S1x1x768.size a ≤ S16x1x768.size a
  inb_S16_S1_6 : ∀ a, (![6] : Fin 1 → Nat) a + S1.size a ≤ S16.size a
  inb_S16x1x768_S1x1x768_6_0_0 : ∀ a, (![6, 0, 0] : Fin 3 → Nat) a + S1x1x768.size a ≤ S16x1x768.size a
  inb_S16_S1_7 : ∀ a, (![7] : Fin 1 → Nat) a + S1.size a ≤ S16.size a
  inb_S16x1x768_S1x1x768_7_0_0 : ∀ a, (![7, 0, 0] : Fin 3 → Nat) a + S1x1x768.size a ≤ S16x1x768.size a
  inb_S16_S1_8 : ∀ a, (![8] : Fin 1 → Nat) a + S1.size a ≤ S16.size a
  inb_S16x1x768_S1x1x768_8_0_0 : ∀ a, (![8, 0, 0] : Fin 3 → Nat) a + S1x1x768.size a ≤ S16x1x768.size a
  inb_S16_S1_9 : ∀ a, (![9] : Fin 1 → Nat) a + S1.size a ≤ S16.size a
  inb_S16x1x768_S1x1x768_9_0_0 : ∀ a, (![9, 0, 0] : Fin 3 → Nat) a + S1x1x768.size a ≤ S16x1x768.size a
  inb_S16_S1_10 : ∀ a, (![10] : Fin 1 → Nat) a + S1.size a ≤ S16.size a
  inb_S16x1x768_S1x1x768_10_0_0 : ∀ a, (![10, 0, 0] : Fin 3 → Nat) a + S1x1x768.size a ≤ S16x1x768.size a
  inb_S16_S1_11 : ∀ a, (![11] : Fin 1 → Nat) a + S1.size a ≤ S16.size a
  inb_S16x1x768_S1x1x768_11_0_0 : ∀ a, (![11, 0, 0] : Fin 3 → Nat) a + S1x1x768.size a ≤ S16x1x768.size a
  inb_S16_S1_12 : ∀ a, (![12] : Fin 1 → Nat) a + S1.size a ≤ S16.size a
  inb_S16x1x768_S1x1x768_12_0_0 : ∀ a, (![12, 0, 0] : Fin 3 → Nat) a + S1x1x768.size a ≤ S16x1x768.size a
  inb_S16_S1_13 : ∀ a, (![13] : Fin 1 → Nat) a + S1.size a ≤ S16.size a
  inb_S16x1x768_S1x1x768_13_0_0 : ∀ a, (![13, 0, 0] : Fin 3 → Nat) a + S1x1x768.size a ≤ S16x1x768.size a
  inb_S16_S1_14 : ∀ a, (![14] : Fin 1 → Nat) a + S1.size a ≤ S16.size a
  inb_S16x1x768_S1x1x768_14_0_0 : ∀ a, (![14, 0, 0] : Fin 3 → Nat) a + S1x1x768.size a ≤ S16x1x768.size a
  inb_S16_S1_15 : ∀ a, (![15] : Fin 1 → Nat) a + S1.size a ≤ S16.size a
  inb_S16x1x768_S1x1x768_15_0_0 : ∀ a, (![15, 0, 0] : Fin 3 → Nat) a + S1x1x768.size a ≤ S16x1x768.size a
  shapeCasts_S1232x1x768_S16x77x768 : S1232x1x768.ShapeCasts S16x77x768
  shapeCasts_S16x77_S16x1x77 : S16x77.ShapeCasts S16x1x77
  bcast_S16_S1x1x16_2 : S16.BroadcastsInDim S1x1x16 (![2] : Fin 1 → Fin S1x1x16.rank)
  bcast_S16x77x1_S16x77x16_0_1_2 : S16x77x1.BroadcastsInDim S16x77x16 (![0, 1, 2] : Fin 3 → Fin S16x77x16.rank)
  bcast_S1x1x16_S16x77x16_0_1_2 : S1x1x16.BroadcastsInDim S16x77x16 (![0, 1, 2] : Fin 3 → Fin S16x77x16.rank)
  inb_S1x77x768_S1x77x768_0_0_0 : ∀ a, (![0, 0, 0] : Fin 3 → Nat) a + S1x77x768.size a ≤ S1x77x768.size a
  h_S1x77x768 : 0 < S1x77x768.numel
  shapeCasts_S1x77x768_S77x768 : S1x77x768.ShapeCasts S77x768
  inb_S1x77x16_S1x77x16_0_0_0 : ∀ a, (![0, 0, 0] : Fin 3 → Nat) a + S1x77x16.size a ≤ S1x77x16.size a
  h_S1x77x16 : 0 < S1x77x16.numel
  shapeCasts_S1x77x16_S77x16 : S1x77x16.ShapeCasts S77x16
  inb_S1x1x77_S1x1x77_0_0_0 : ∀ a, (![0, 0, 0] : Fin 3 → Nat) a + S1x1x77.size a ≤ S1x1x77.size a
  h_S1x1x77 : 0 < S1x1x77.numel
  shapeCasts_S1x1x77_S77 : S1x1x77.ShapeCasts S77
  shapeCasts_S77_S77x1 : S77.ShapeCasts S77x1
  shapeCasts_S77x1_S77x1 : S77x1.ShapeCasts S77x1
  broadcasts_S77x1_S77x768 : S77x1.Broadcasts S77x768
  h_S1x16x768 : 0 < S1x16x768.numel
  shapeCasts_S1x16x768_S16x768 : S1x16x768.ShapeCasts S16x768
  h_S1x1x77x768 : 0 < S1x1x77x768.numel
  shapeCasts_S1x1x77x768_S77x768 : S1x1x77x768.ShapeCasts S77x768
  shapeCasts_S77x768_S1x1x77x768 : S77x768.ShapeCasts S1x1x77x768
  gather_S16x77_S16x77x1_S16x77_n_1_0_0_1_2_11_wf : GatherDims.WF S16x77 S16x77x1 S16x77 [] [1] [0] [1] [0] 2 ![1, 1]
  gather_S16_S16x77x1_S16x77_n_0_n_n_0_2_1_wf : GatherDims.WF S16 S16x77x1 S16x77 [] [0] [] [0] [] 2 ![1]
  dot_S77x16_S16x768_S77x768_1_0_0_1_n_n_wf : DotDims.WF S77x16 S16x768 S77x768 [1] [0] [0] [1] [] []
  hcc0_scratch0 : 2 + S16.numel ≤ 28
  hrank0 : 0 < grid0.rank
  k0_off1_inb : ∀ i : grid0.Coords, ∀ a, (k0_off1 i) a + S1.size a ≤ S1232.size a
  k0_off3_inb : ∀ i : grid0.Coords, ∀ a, (k0_off3 i) a + S1.size a ≤ S1232.size a
  k0_off5_inb : ∀ i : grid0.Coords, ∀ a, (k0_off5 i) a + S1.size a ≤ S1232.size a
  k0_off7_inb : ∀ i : grid0.Coords, ∀ a, (k0_off7 i) a + S1.size a ≤ S1232.size a
  k0_off9_inb : ∀ i : grid0.Coords, ∀ a, (k0_off9 i) a + S1.size a ≤ S1232.size a
  k0_off11_inb : ∀ i : grid0.Coords, ∀ a, (k0_off11 i) a + S1.size a ≤ S1232.size a
  k0_off13_inb : ∀ i : grid0.Coords, ∀ a, (k0_off13 i) a + S1.size a ≤ S1232.size a
  k0_off15_inb : ∀ i : grid0.Coords, ∀ a, (k0_off15 i) a + S1.size a ≤ S1232.size a
  k0_off17_inb : ∀ i : grid0.Coords, ∀ a, (k0_off17 i) a + S1.size a ≤ S1232.size a
  k0_off19_inb : ∀ i : grid0.Coords, ∀ a, (k0_off19 i) a + S1.size a ≤ S1232.size a
  k0_off21_inb : ∀ i : grid0.Coords, ∀ a, (k0_off21 i) a + S1.size a ≤ S1232.size a
  k0_off23_inb : ∀ i : grid0.Coords, ∀ a, (k0_off23 i) a + S1.size a ≤ S1232.size a
  k0_off25_inb : ∀ i : grid0.Coords, ∀ a, (k0_off25 i) a + S1.size a ≤ S1232.size a
  k0_off27_inb : ∀ i : grid0.Coords, ∀ a, (k0_off27 i) a + S1.size a ≤ S1232.size a
  k0_off29_inb : ∀ i : grid0.Coords, ∀ a, (k0_off29 i) a + S1.size a ≤ S1232.size a
  k0_off31_inb : ∀ i : grid0.Coords, ∀ a, (k0_off31 i) a + S1.size a ≤ S1232.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S16x1x768.size a ≤ S1232x1x768.size a
  hwx0_0 : ∀ i : grid0.Coords, EltTy.bits .f32 = 32 ∨ (Rect.block (s := S1232x1x768) S16x1x768.size (cc0_transform_1 i) (hinb0_0 i)).WholeWords (EltTy.packing .f32)
  hrank1 : 0 < grid1.rank
  k1_t1_ok : k1_t1_loop.OK
  k1_off1_inb : ∀ k1_t1 : Fin k1_t1_loop.trips, ∀ a, (k1_off1 k1_t1) a + S1x16x768.size a ≤ S39x16x768.size a
  k1_off2_inb : ∀ k1_t1 : Fin k1_t1_loop.trips, ∀ a, (k1_off2 k1_t1) a + S1x1x77x768.size a ≤ S1x39x77x768.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x77x768.size a ≤ S16x77x768.size a
  hwx1_0 : ∀ i : grid1.Coords, EltTy.bits .f32 = 32 ∨ (Rect.block (s := S16x77x768) S1x77x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S39x16x768.size a ≤ S117x16x768.size a
  hwx1_1 : ∀ i : grid1.Coords, EltTy.bits .f32 = 32 ∨ (Rect.block (s := S117x16x768) S39x16x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x77x16.size a ≤ S16x77x16.size a
  hwx1_2 : ∀ i : grid1.Coords, EltTy.bits .f32 = 32 ∨ (Rect.block (s := S16x77x16) S1x77x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x77.size a ≤ S16x1x77.size a
  hwx1_3 : ∀ i : grid1.Coords, EltTy.bits .f32 = 32 ∨ (Rect.block (s := S16x1x77) S1x1x77.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x39x77x768.size a ≤ S16x117x77x768.size a
  hwx1_4 : ∀ i : grid1.Coords, EltTy.bits .f32 = 32 ∨ (Rect.block (s := S16x117x77x768) S1x39x77x768.size (cc1_transform_4 i) (hinb1_4 i)).WholeWords (EltTy.packing .f32)

variable [Facts₀]

abbrev cc0_scratch0 : DmaSems sig S16 := SemArray.consecutive 2 S16 hcc0_scratch0
def gather_S16x77_S16x77x1_S16x77_n_1_0_0_1_2_11 : GatherDims S16x77 S16x77x1 S16x77 where
  offsetDims := []
  collapsedSliceDims := [1]
  operandBatchingDims := [0]
  startIndicesBatchingDims := [0]
  startIndexMap := [1]
  indexVectorDim := 2
  sliceSizes := ![1, 1]
  wf := gather_S16x77_S16x77x1_S16x77_n_1_0_0_1_2_11_wf
def gather_S16_S16x77x1_S16x77_n_0_n_n_0_2_1 : GatherDims S16 S16x77x1 S16x77 where
  offsetDims := []
  collapsedSliceDims := [0]
  operandBatchingDims := []
  startIndicesBatchingDims := []
  startIndexMap := [0]
  indexVectorDim := 2
  sliceSizes := ![1]
  wf := gather_S16_S16x77x1_S16x77_n_0_n_n_0_2_1_wf
def dot_S77x16_S16x768_S77x768_1_0_0_1_n_n : DotDims S77x16 S16x768 S77x768 where
  lhsContracting := [1]
  rhsContracting := [0]
  lhsNonContracting := [0]
  rhsNonContracting := [1]
  lhsBatch := []
  rhsBatch := []
  wf := dot_S77x16_S16x768_S77x768_1_0_0_1_n_n_wf

abbrev spec0_0 : Pipeline.WinSpec sig grid0.rank :=
  Pipeline.WinSpec.ofSpec (Memref.whole main_v36) S16x1x768.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_v37) S1x77x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S39x16x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x77x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x1x77.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x39x77x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where
  harr0 : ∀ w, (spec0 w).arr.IsWhole

variable [Facts]
-- ==== ReferenceIdeal.lean ====
abbrev S16x77 : Shape := ⟨2, ![16, 77]⟩
abbrev S16 : Shape := ⟨1, ![16]⟩
abbrev S117x16x768 : Shape := ⟨3, ![117, 16, 768]⟩
abbrev S49408x768 : Shape := ⟨2, ![49408, 768]⟩
abbrev S1x16 : Shape := ⟨2, ![1, 16]⟩
abbrev S16x1 : Shape := ⟨2, ![16, 1]⟩
abbrev S77 : Shape := ⟨1, ![77]⟩
abbrev S1x77 : Shape := ⟨2, ![1, 77]⟩
abbrev S_ : Shape := ⟨0, ![]⟩
abbrev S16x77x1 : Shape := ⟨3, ![16, 77, 1]⟩
abbrev S1 : Shape := ⟨1, ![1]⟩
abbrev S1x1x1 : Shape := ⟨3, ![1, 1, 1]⟩
abbrev S16x77x768 : Shape := ⟨3, ![16, 77, 768]⟩
abbrev S117x16x77x768 : Shape := ⟨4, ![117, 16, 77, 768]⟩
abbrev S1x16x77x1 : Shape := ⟨4, ![1, 16, 77, 1]⟩
abbrev S1x16x77x768 : Shape := ⟨4, ![1, 16, 77, 768]⟩
abbrev S16x117x77x768 : Shape := ⟨4, ![16, 117, 77, 768]⟩

abbrev nBuf : Space → Nat
  | .hbm => 129
  | .vmem => 0
  | .smem => 0
  | _ => 0

abbrev hbmTy0_0 (i : Nat) : BufTy := match i % 128 with
  | 0 => ⟨S16x77, .i32⟩
  | 1 => ⟨S16, .i32⟩
  | 2 => ⟨S117x16x768, .f32⟩
  | 3 => ⟨S49408x768, .f32⟩
  | 4 => ⟨S1x16, .i32⟩
  | 5 => ⟨S16x1, .i32⟩
  | 6 => ⟨S77, .i32⟩
  | 7 => ⟨S1x77, .i32⟩
  | 8 => ⟨S16x77, .i32⟩
  | 9 => ⟨S16x77, .i32⟩
  | 10 => ⟨S16x77, .i1⟩
  | 11 => ⟨S_, .i32⟩
  | 12 => ⟨S16x1, .i32⟩
  | 13 => ⟨S16x1, .i32⟩
  | 14 => ⟨S16x77, .i32⟩
  | 15 => ⟨S16x77, .i32⟩
  | 16 => ⟨S16x77, .i1⟩
  | 17 => ⟨S16x77, .i1⟩
  | 18 => ⟨S16x77, .i32⟩
  | 19 => ⟨S16x77, .i32⟩
  | 20 => ⟨S16x77, .i1⟩
  | 21 => ⟨S_, .i32⟩
  | 22 => ⟨S1x77, .i32⟩
  | 23 => ⟨S1x77, .i32⟩
  | 24 => ⟨S16x77, .i32⟩
  | 25 => ⟨S16x77, .i32⟩
  | 26 => ⟨S16x77, .i32⟩
  | 27 => ⟨S_, .i32⟩
  | 28 => ⟨S_, .i32⟩
  | 29 => ⟨S_, .i32⟩
  | 30 => ⟨S16x77, .i32⟩
  | 31 => ⟨S16x77, .i32⟩
  | 32 => ⟨S_, .i32⟩
  | 33 => ⟨S16x77, .i32⟩
  | 34 => ⟨S16x77, .i32⟩
  | 35 => ⟨S16x77, .i32⟩
  | 36 => ⟨S16x77, .i32⟩
  | 37 => ⟨S16x77, .i32⟩
  | 38 => ⟨S_, .i32⟩
  | 39 => ⟨S16x77, .i32⟩
  | 40 => ⟨S16x77, .i32⟩
  | 41 => ⟨S_, .i32⟩
  | 42 => ⟨S_, .i32⟩
  | 43 => ⟨S_, .i32⟩
  | 44 => ⟨S16x77, .i32⟩
  | 45 => ⟨S16x77, .i32⟩
  | 46 => ⟨S_, .i32⟩
  | 47 => ⟨S16x77, .i32⟩
  | 48 => ⟨S16x77, .i32⟩
  | 49 => ⟨S_, .i32⟩
  | 50 => ⟨S16x77, .i32⟩
  | 51 => ⟨S16x77, .i1⟩
  | 52 => ⟨S_, .i32⟩
  | 53 => ⟨S16x77, .i32⟩
  | 54 => ⟨S16x77, .i32⟩
  | 55 => ⟨S16x77, .i32⟩
  | 56 => ⟨S16x77x1, .i32⟩
  | 57 => ⟨S1, .i32⟩
  | 58 => ⟨S_, .i32⟩
  | 59 => ⟨S16x77x1, .i32⟩
  | 60 => ⟨S16x77x1, .i1⟩
  | 61 => ⟨S1x1x1, .i32⟩
  | 62 => ⟨S16x77x1, .i32⟩
  | 63 => ⟨S16x77x1, .i1⟩
  | 64 => ⟨S16x77x1, .i1⟩
  | 65 => ⟨S_, .i1⟩
  | 66 => ⟨S16x77, .i1⟩
  | 67 => ⟨S16x77, .i32⟩
  | 68 => ⟨S_, .i32⟩
  | 69 => ⟨S16x77, .i32⟩
  | 70 => ⟨S16x77, .i32⟩
  | 71 => ⟨S16, .i32⟩
  | 72 => ⟨S_, .i32⟩
  | 73 => ⟨S16x77, .i32⟩
  | 74 => ⟨S16x77, .i1⟩
  | 75 => ⟨S_, .i32⟩
  | 76 => ⟨S16x77, .i32⟩
  | 77 => ⟨S16x77, .i32⟩
  | 78 => ⟨S16x77, .i32⟩
  | 79 => ⟨S16x77x1, .i32⟩
  | 80 => ⟨S16x77, .i32⟩
  | 81 => ⟨S16x77, .i32⟩
  | 82 => ⟨S_, .i32⟩
  | 83 => ⟨S16x77, .i32⟩
  | 84 => ⟨S16x77, .i1⟩
  | 85 => ⟨S_, .i32⟩
  | 86 => ⟨S16x77, .i32⟩
  | 87 => ⟨S16x77, .i32⟩
  | 88 => ⟨S16x77, .i32⟩
  | 89 => ⟨S16x77x1, .i32⟩
  | 90 => ⟨S16x77x768, .f32⟩
  | 91 => ⟨S16x77x1, .i32⟩
  | 92 => ⟨S_, .i32⟩
  | 93 => ⟨S16x77x1, .i32⟩
  | 94 => ⟨S16x77x1, .i1⟩
  | 95 => ⟨S_, .i32⟩
  | 96 => ⟨S16x77x1, .i32⟩
  | 97 => ⟨S16x77x1, .i32⟩
  | 98 => ⟨S16x77x1, .i32⟩
  | 99 => ⟨S1, .i32⟩
  | 100 => ⟨S_, .i32⟩
  | 101 => ⟨S16x77x1, .i32⟩
  | 102 => ⟨S16x77x1, .i1⟩
  | 103 => ⟨S1x1x1, .i32⟩
  | 104 => ⟨S16x77x1, .i32⟩
  | 105 => ⟨S16x77x1, .i1⟩
  | 106 => ⟨S16x77x1, .i1⟩
  | 107 => ⟨S_, .i1⟩
  | 108 => ⟨S16x77, .i1⟩
  | 109 => ⟨S16x77x768, .f32⟩
  | 110 => ⟨S16x77x768, .i1⟩
  | 111 => ⟨S_, .f32⟩
  | 112 => ⟨S16x77x768, .f32⟩
  | 113 => ⟨S16x77x768, .f32⟩
  | 114 => ⟨S_, .i32⟩
  | 115 => ⟨S16x77, .i32⟩
  | 116 => ⟨S16x77, .i1⟩
  | 117 => ⟨S_, .i32⟩
  | 118 => ⟨S16x77, .i32⟩
  | 119 => ⟨S16x77, .i32⟩
  | 120 => ⟨S16x77, .i32⟩
  | 121 => ⟨S16x77x1, .i32⟩
  | 122 => ⟨S117x16x77x768, .f32⟩
  | 123 => ⟨S1x16x77x1, .i1⟩
  | 124 => ⟨S1x16x77x768, .f32⟩
  | 125 => ⟨S117x16x77x768, .i1⟩
  | 126 => ⟨S117x16x77x768, .f32⟩
  | 127 => ⟨S117x16x77x768, .f32⟩
  | _ => ⟨S16x77, .i32⟩

abbrev hbmTy0_1 (i : Nat) : BufTy := match i % 128 with
  | 0 => ⟨S16x117x77x768, .f32⟩
  | _ => ⟨S16x77, .i32⟩

abbrev hbmTy (i : Nat) : BufTy := match i / 128 with
  | 0 => hbmTy0_0 i
  | 1 => hbmTy0_1 i
  | _ => ⟨S16x77, .i32⟩

abbrev bufTy : (tb : Table) → Fin (tcTables nBuf tb) → BufTy
  | .hbm, ⟨i, _⟩ => hbmTy i
  | _, _ => ⟨S16x77, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_c_1 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_c_5 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v24 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_c_4 : Ref sig .tc := ⟨.hbm, 68, rfl⟩
abbrev main_call3_v14 : Ref sig .tc := ⟨.hbm, 69, rfl⟩
abbrev main_v25 : Ref sig .tc := ⟨.hbm, 70, rfl⟩
abbrev main_v26 : Ref sig .tc := ⟨.hbm, 71, rfl⟩
abbrev main_c_6 : Ref sig .tc := ⟨.hbm, 72, rfl⟩
abbrev main_v27 : Ref sig .tc := ⟨.hbm, 73, rfl⟩
abbrev main_v28 : Ref sig .tc := ⟨.hbm, 74, rfl⟩
abbrev main_c_7 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_c_8 : Ref sig .tc := ⟨.hbm, 82, rfl⟩
abbrev main_v35 : Ref sig .tc := ⟨.hbm, 83, rfl⟩
abbrev main_v36 : Ref sig .tc := ⟨.hbm, 84, rfl⟩
abbrev main_c_9 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_call5_c : Ref sig .tc := ⟨.hbm, 92, rfl⟩
abbrev main_call5_v0 : Ref sig .tc := ⟨.hbm, 93, rfl⟩
abbrev main_call5_v1 : Ref sig .tc := ⟨.hbm, 94, rfl⟩
abbrev main_call5_c_0 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_c_1 : Ref sig .tc := ⟨.hbm, 99, rfl⟩
abbrev main_call5_c_2 : Ref sig .tc := ⟨.hbm, 100, rfl⟩
abbrev main_call5_v5 : Ref sig .tc := ⟨.hbm, 101, rfl⟩
abbrev main_call5_v6 : Ref sig .tc := ⟨.hbm, 102, rfl⟩
abbrev main_call5_v7 : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_call5_c_3 : Ref sig .tc := ⟨.hbm, 107, rfl⟩
abbrev main_call5_v11 : Ref sig .tc := ⟨.hbm, 108, rfl⟩
abbrev main_call5_v12 : Ref sig .tc := ⟨.hbm, 109, rfl⟩
abbrev main_call5_v13 : Ref sig .tc := ⟨.hbm, 110, rfl⟩
abbrev main_call5_cst : Ref sig .tc := ⟨.hbm, 111, rfl⟩
abbrev main_call5_v14 : Ref sig .tc := ⟨.hbm, 112, rfl⟩
abbrev main_v43 : Ref sig .tc := ⟨.hbm, 113, rfl⟩
abbrev main_c_10 : Ref sig .tc := ⟨.hbm, 114, rfl⟩
abbrev main_v44 : Ref sig .tc := ⟨.hbm, 115, rfl⟩
abbrev main_v45 : Ref sig .tc := ⟨.hbm, 116, rfl⟩
abbrev main_c_11 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_call6_v0 : Ref sig .tc := ⟨.hbm, 125, rfl⟩
abbrev main_call6_v1 : Ref sig .tc := ⟨.hbm, 126, rfl⟩
abbrev main_v53 : Ref sig .tc := ⟨.hbm, 127, rfl⟩
abbrev main_v54 : Ref sig .tc := ⟨.hbm, 128, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S77_S1x77_1 : S77.BroadcastsInDim S1x77 (![1] : Fin 1 → Fin S1x77.rank)
  bcast_S1x77_S16x77_0_1 : S1x77.BroadcastsInDim S16x77 (![0, 1] : Fin 2 → Fin S16x77.rank)
  bcast_S16x1_S16x77_0_1 : S16x1.BroadcastsInDim S16x77 (![0, 1] : Fin 2 → Fin S16x77.rank)
  bcast_S_S16x1 : S_.BroadcastsInDim S16x1 (![] : Fin 0 → Fin S16x1.rank)
  bcast_S_S1x77 : S_.BroadcastsInDim S1x77 (![] : Fin 0 → Fin S1x77.rank)
  bcast_S_S16x77 : S_.BroadcastsInDim S16x77 (![] : Fin 0 → Fin S16x77.rank)
  shapeCasts_S16x77_S16x77x1 : S16x77.ShapeCasts S16x77x1
  bcast_S_S16x77x1 : S_.BroadcastsInDim S16x77x1 (![] : Fin 0 → Fin S16x77x1.rank)
  bcast_S1_S1x1x1_2 : S1.BroadcastsInDim S1x1x1 (![2] : Fin 1 → Fin S1x1x1.rank)
  bcast_S1x1x1_S16x77x1_0_1_2 : S1x1x1.BroadcastsInDim S16x77x1 (![0, 1, 2] : Fin 3 → Fin S16x77x1.rank)
  reducesTo_S16x77x1_S16x77_d2 : S16x77x1.ReducesTo [2] S16x77
  h_S_ : 0 < S_.numel
  shapeCasts_S1x16_S16 : S1x16.ShapeCasts S16
  bcast_S16x77_S16x77x1_0_1 : S16x77.BroadcastsInDim S16x77x1 (![0, 1] : Fin 2 → Fin S16x77x1.rank)
  bcast_S16x77_S16x77x768_0_1 : S16x77.BroadcastsInDim S16x77x768 (![0, 1] : Fin 2 → Fin S16x77x768.rank)
  bcast_S_S16x77x768 : S_.BroadcastsInDim S16x77x768 (![] : Fin 0 → Fin S16x77x768.rank)
  bcast_S16x77_S1x16x77x1_1_2 : S16x77.BroadcastsInDim S1x16x77x1 (![1, 2] : Fin 2 → Fin S1x16x77x1.rank)
  bcast_S16x77x768_S1x16x77x768_1_2_3 : S16x77x768.BroadcastsInDim S1x16x77x768 (![1, 2, 3] : Fin 3 → Fin S1x16x77x768.rank)
  bcast_S1x16x77x1_S117x16x77x768_0_1_2_3 : S1x16x77x1.BroadcastsInDim S117x16x77x768 (![0, 1, 2, 3] : Fin 4 → Fin S117x16x77x768.rank)
  bcast_S1x16x77x768_S117x16x77x768_0_1_2_3 : S1x16x77x768.BroadcastsInDim S117x16x77x768 (![0, 1, 2, 3] : Fin 4 → Fin S117x16x77x768.rank)
  transposes_S117x16x77x768_S16x117x77x768_1_0_2_3 : S117x16x77x768.Transposes [1, 0, 2, 3] S16x117x77x768
  gather_S16x77_S16x77x1_S16x77_n_1_0_0_1_2_11_wf : GatherDims.WF S16x77 S16x77x1 S16x77 [] [1] [0] [1] [0] 2 ![1, 1]
  gather_S16_S16x77x1_S16x77_n_0_n_n_0_2_1_wf : GatherDims.WF S16 S16x77x1 S16x77 [] [0] [] [0] [] 2 ![1]
  gather_S49408x768_S16x77x1_S16x77x768_2_0_n_n_0_2_1768_wf : GatherDims.WF S49408x768 S16x77x1 S16x77x768 [2] [0] [] [0] [] 2 ![1, 768]
  gather_S16x77x768_S16x77x1_S16x77x768_2_1_0_0_1_2_11768_wf : GatherDims.WF S16x77x768 S16x77x1 S16x77x768 [2] [1] [0] [1] [0] 2 ![1, 1, 768]
  gather_S117x16x768_S16x77x1_S117x16x77x768_03_1_n_n_1_2_1171768_wf : GatherDims.WF S117x16x768 S16x77x1 S117x16x77x768 [0, 3] [1] [] [1] [] 2 ![117, 1, 768]

variable [Facts₀]

def gather_S16x77_S16x77x1_S16x77_n_1_0_0_1_2_11 : GatherDims S16x77 S16x77x1 S16x77 where
  offsetDims := []
  collapsedSliceDims := [1]
  operandBatchingDims := [0]
  startIndicesBatchingDims := [0]
  startIndexMap := [1]
  indexVectorDim := 2
  sliceSizes := ![1, 1]
  wf := gather_S16x77_S16x77x1_S16x77_n_1_0_0_1_2_11_wf
def gather_S16_S16x77x1_S16x77_n_0_n_n_0_2_1 : GatherDims S16 S16x77x1 S16x77 where
  offsetDims := []
  collapsedSliceDims := [0]
  operandBatchingDims := []
  startIndicesBatchingDims := []
  startIndexMap := [0]
  indexVectorDim := 2
  sliceSizes := ![1]
  wf := gather_S16_S16x77x1_S16x77_n_0_n_n_0_2_1_wf
def gather_S49408x768_S16x77x1_S16x77x768_2_0_n_n_0_2_1768 : GatherDims S49408x768 S16x77x1 S16x77x768 where
  offsetDims := [2]
  collapsedSliceDims := [0]
  operandBatchingDims := []
  startIndicesBatchingDims := []
  startIndexMap := [0]
  indexVectorDim := 2
  sliceSizes := ![1, 768]
  wf := gather_S49408x768_S16x77x1_S16x77x768_2_0_n_n_0_2_1768_wf
def gather_S16x77x768_S16x77x1_S16x77x768_2_1_0_0_1_2_11768 : GatherDims S16x77x768 S16x77x1 S16x77x768 where
  offsetDims := [2]
  collapsedSliceDims := [1]
  operandBatchingDims := [0]
  startIndicesBatchingDims := [0]
  startIndexMap := [1]
  indexVectorDim := 2
  sliceSizes := ![1, 1, 768]
  wf := gather_S16x77x768_S16x77x1_S16x77x768_2_1_0_0_1_2_11768_wf
def gather_S117x16x768_S16x77x1_S117x16x77x768_03_1_n_n_1_2_1171768 : GatherDims S117x16x768 S16x77x1 S117x16x77x768 where
  offsetDims := [0, 3]
  collapsedSliceDims := [1]
  operandBatchingDims := []
  startIndicesBatchingDims := []
  startIndexMap := [1]
  indexVectorDim := 2
  sliceSizes := ![117, 1, 768]
  wf := gather_S117x16x768_S16x77x1_S117x16x77x768_03_1_n_n_1_2_1171768_wf

class Facts : Prop extends Facts₀ where

variable [Facts]
-- ==== Proof.KICommon.lean ====
import proofs.«402305_j66125316489726_3_alg».proof.Proof.Gen.KernelIdeal.Launch
import proofs.«402305_j66125316489726_3_alg».proof.Proof.Gen.KernelIdeal.Skeleton
import proofs.«402305_j66125316489726_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.HeldBySlice
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev MU : Type := MT nD τ sig Unit (Elt F) ℕ (Pipeline.UD sig nD τ) ℕ

noncomputable abbrev hbM : Memref sig .tc .hbm S49408x768 .f32 := Memref.whole main_arg3

noncomputable abbrev idM : Memref sig .tc .smem S1232 .i32 := Memref.whole main_v35

abbrev HbBuf (c : Dev nD) {sp : Space} {S : Shape} {e : EltTy} (M : Memref sig .tc sp S e) : Type := Buf (Elt F) (M.view.loc (c : Thread nD τ))
abbrev hbAt (c : Dev nD) {sp : Space} {S : Shape} {e : EltTy} (M : Memref sig .tc sp S e) (q : PosShare TreeShare) (f : HbBuf (F := F) c M) : sProp (MU (F := F)) :=
  M.view.loc (c : Thread nD τ) ↦{q} f
abbrev hbPt (c : Dev nD) {sp : Space} {S : Shape} {e : EltTy} (M : Memref sig .tc sp S e) (f : HbBuf (F := F) c M) : sProp (MU (F := F)) :=
  hbAt c M fullShare f

abbrev sems16 (c : Dev nD) : sProp (MU (F := F)) :=
  iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)

end Cert.KernelIdeal.Hand

end
-- ==== Proof.KIGather.lean ====
import proofs.«402305_j66125316489726_3_alg».proof.Proof.KICommon
import Idealize.ShloMosaic.Lib.ReshapeSlab
import Idealize.ShloMosaic.Lib.ValueIdx

set_option maxRecDepth 16384

noncomputable section

namespace Cert.KernelIdeal.Gather

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

theorem rowInb (r : Fin 16) : ∀ a, (![r.val, 0, 0] : Fin 3 → ℕ) a + S1x1x768.size a ≤ S16x1x768.size a := by
  intro a; fin_cases a
  · show r.val + 1 ≤ 16; omega
  · show 0 + 1 ≤ 1; omega
  · show 0 + 768 ≤ 768; omega

noncomputable abbrev rowR (r : Fin 16) : Rect S16x1x768 := Rect.unit (s := S16x1x768) ![r.val, 0, 0] S1x1x768.size (rowInb r)

noncomputable abbrev rowM (m : Memref sig .tc .vmem S16x1x768 .f32) (r : Fin 16) : Memref sig .tc .vmem S1x768 .f32 :=
  (m.slice (rowR r) (fun _ => rfl)).squeeze S1x768 squeezes_S1x1x768_S1x768

theorem rowM_set (m : Memref sig .tc .vmem S16x1x768 .f32) (r : Fin 16) :
    (rowM m r).view.set = (m.view.slice (rowR r)).set := Memref.set_view_squeeze _ _

theorem rowSub (m : Memref sig .tc .vmem S16x1x768 .f32) (r : Fin 16) : (rowM m r).view.set ⊆ m.view.set := by
  rw [rowM_set]; exact View.set_slice_subset _ _

theorem rowDisj (m : Memref sig .tc .vmem S16x1x768 .f32) (a b : Fin 16) (h : a ≠ b) :
    Disjoint (rowM m a).view.set (rowM m b).view.set := by
  rw [rowM_set, rowM_set]
  refine View.disjoint_slice_of_sep m.view (rowR a) (rowR b) ⟨0, by decide⟩ rfl rfl ?_
  show a.val + 1 ≤ b.val ∨ b.val + 1 ≤ a.val
  have : a.val ≠ b.val := fun e => h (Fin.ext e)
  omega

theorem joinStep {ℓ : Loc nD τ sig} {I S : Finset (Idx ℓ)} {q : PosShare TreeShare} {f g : Buf (Elt F) ℓ}
    (hI : I ⊆ S) (hfg : ∀ i ∈ I, f i = g i) :
    iprop((ℓ ↦[I]{q} f) ∗ ℓ ↦[S \ I]{q} g) ⊢ (ℓ ↦[S]{q} g : sProp 𝕄) := by
  rw [pointsTo_congr hfg]; exact (pointsTo_split_subset hI).2

theorem rowM_emb (m : Memref sig .tc .vmem S16x1x768 .f32) (r : Fin 16) (y : S1x768.Idx) :
    (rowM m r).view.emb y = m.view.emb (ix3 r (0 : Fin 1) (y 1)) := by
  show m.view.emb ((rowR r).emb (Shape.reshapeEquiv _ y)) = _
  congr 1
  rw [Shape.reshapeEquiv_cons_one]
  funext a
  apply Fin.ext
  rw [Rect.emb_apply]
  match a with
  | ⟨0, _⟩ => show r.val + 1 * 0 = r.val; omega
  | ⟨1, _⟩ =>
    have h : (y 0).val < 1 := (y 0).isLt
    show 0 + 1 * (y 0).val = 0; omega
  | ⟨2, _⟩ => show 0 + 1 * (y 1).val = (y 1).val; omega

theorem readRow (m : Memref sig .tc .vmem S16x1x768 .f32) (r : Fin 16) (f : m.view.ty.Contents (Elt F))
    (p : S1x768.Idx → Elt F .f32) (d : Fin 768) :
    m.view.read (Elt F) ((rowM m r).view.write (Elt F) f p Finset.univ) (ix3 r (0 : Fin 1) d) = p (ix2 (0 : Fin 1) d) := by
  have e := rowM_emb m r (ix2 (0 : Fin 1) d)
  rw [View.read_apply, show m.view.emb (ix3 r (0 : Fin 1) d) = (rowM m r).view.emb (ix2 (0 : Fin 1) d) from e.symm,
    View.write_emb_of_mem _ _ (Finset.mem_univ _), cast_cast, cast_eq]

theorem readOther (m : Memref sig .tc .vmem S16x1x768 .f32) (k r : Fin 16) (h : k ≠ r) (f : m.view.ty.Contents (Elt F))
    (p : S1x768.Idx → Elt F .f32) (d : Fin 768) :
    m.view.read (Elt F) ((rowM m k).view.write (Elt F) f p Finset.univ) (ix3 r (0 : Fin 1) d)
      = m.view.read (Elt F) f (ix3 r (0 : Fin 1) d) := by
  refine View.read_congr_at _ (View.write_of_not_mem _ _ _ ?_)
  rw [View.setOn_univ]
  intro hk
  have hr : m.view.emb (ix3 r (0 : Fin 1) d) ∈ (rowM m r).view.set := by
    rw [← rowM_emb m r (ix2 (0 : Fin 1) d)]; exact View.emb_mem_set _ _
  exact Finset.disjoint_left.mp (rowDisj m k r h) hk hr

-- The block's contents after the listed rows were written through, the last written first.
noncomputable def writeRows (m : Memref sig .tc .vmem S16x1x768 .f32) (f : m.view.ty.Contents (Elt F)) :
    List (Fin 16 × (S1x768.Idx → Elt F .f32)) → m.view.ty.Contents (Elt F)
  | [] => f
  | p :: ps => (rowM m p.1).view.write (Elt F) (writeRows m f ps) p.2 Finset.univ

-- Writes through other rows leave a row's elements as they were.
theorem agree_append (m : Memref sig .tc .vmem S16x1x768 .f32) (f : m.view.ty.Contents (Elt F)) (k : Fin 16)
    (ps : List (Fin 16 × (S1x768.Idx → Elt F .f32))) :
    ∀ pre : List (Fin 16 × (S1x768.Idx → Elt F .f32)), (∀ p ∈ pre, p.1 ≠ k) →
      ∀ i ∈ (rowM m k).view.set, writeRows m f ps i = writeRows m f (pre ++ ps) i
  | [], _, _, _ => rfl
  | p :: pre, h, i, hi => by
    rw [List.cons_append, writeRows, View.write_of_not_mem _ _ _ (by
      rw [View.setOn_univ]; exact Finset.disjoint_left.mp (rowDisj m k p.1 (h p List.mem_cons_self).symm) hi)]
    exact agree_append m f k ps pre (fun q hq => h q (List.mem_cons_of_mem _ hq)) i hi

theorem read_writeRows (m : Memref sig .tc .vmem S16x1x768 .f32) (f : m.view.ty.Contents (Elt F))
    (G : Vec F S16x1x768 .f32) (r : Fin 16) (d : Fin 768) :
    ∀ ps : List (Fin 16 × (S1x768.Idx → Elt F .f32)), (∀ p ∈ ps, G (ix3 p.1 (0 : Fin 1) d) = p.2 (ix2 (0 : Fin 1) d)) →
      r ∈ ps.map Prod.fst → m.view.read (Elt F) (writeRows m f ps) (ix3 r (0 : Fin 1) d) = G (ix3 r (0 : Fin 1) d)
  | [], _, hr => by simp at hr
  | p :: ps, h, hr => by
    rw [writeRows]
    by_cases e : p.1 = r
    · subst e; exact (readRow m p.1 _ p.2 d).trans (h p List.mem_cons_self).symm
    · exact (readOther m p.1 r e _ p.2 d).trans (read_writeRows m f G r d ps (fun q hq => h q (List.mem_cons_of_mem _ hq))
        ((List.mem_cons.mp hr).resolve_left (Ne.symm e)))

-- When every row was written, the block reads as the value whose rows are the payloads.
theorem readBack (m : Memref sig .tc .vmem S16x1x768 .f32) (f : m.view.ty.Contents (Elt F))
    (ps : List (Fin 16 × (S1x768.Idx → Elt F .f32))) (G : Vec F S16x1x768 .f32)
    (hrows : ∀ r : Fin 16, r ∈ ps.map Prod.fst)
    (h : ps.Forall fun p => ∀ d : Fin 768, G (ix3 p.1 (0 : Fin 1) d) = p.2 (ix2 (0 : Fin 1) d)) :
    m.view.read (Elt F) (writeRows m f ps) = G := by
  funext j
  have hz : j 1 = (0 : Fin 1) := Fin.ext (by have h : (j 1).val < 1 := (j 1).isLt; show (j 1).val = 0; omega)
  rw [eq_ix3 j, hz]
  exact read_writeRows m f G (j 0) (j 2) ps (fun p hp => List.forall_iff_forall_mem.mp h p hp (j 2)) (hrows (j 0))

-- The block's elements with the listed rows carved out.
noncomputable def restSet (m : Memref sig .tc .vmem S16x1x768 .f32) (c : Dev nD) (S : Finset (Idx (m.view.loc (c : Thread nD τ)))) :
    List (Fin 16 × (S1x768.Idx → Elt F .f32)) → Finset (Idx (m.view.loc (c : Thread nD τ)))
  | [] => S
  | p :: ps => restSet m c S ps \ ((rowM m p.1).view.set : Finset (Idx (m.view.loc (c : Thread nD τ))))

theorem sub_restSet (m : Memref sig .tc .vmem S16x1x768 .f32) (c : Dev nD) (S : Finset (Idx (m.view.loc (c : Thread nD τ))))
    (k : Fin 16) (hk : (rowM m k).view.set ⊆ S) :
    ∀ ps : List (Fin 16 × (S1x768.Idx → Elt F .f32)), (∀ p ∈ ps, p.1 ≠ k) → (rowM m k).view.set ⊆ restSet m c S ps
  | [], _ => hk
  | p :: ps, h => Finset.subset_sdiff.mpr ⟨sub_restSet m c S k hk ps (fun q hq => h q (List.mem_cons_of_mem _ hq)),
      rowDisj m k p.1 (h p List.mem_cons_self).symm⟩

-- Each listed row held on its own, at the contents its write left.
noncomputable def landed (m : Memref sig .tc .vmem S16x1x768 .f32) (c : Dev nD) (q : PosShare TreeShare) (f : m.view.ty.Contents (Elt F)) :
    List (Fin 16 × (S1x768.Idx → Elt F .f32)) → sProp 𝕄
  | [] => iprop(emp)
  | p :: ps => iprop(((m.view.loc (c : Thread nD τ)) ↦[((rowM m p.1).view.set : Finset (Idx (m.view.loc (c : Thread nD τ))))]{q} writeRows m f (p :: ps))
      ∗ landed m c q f ps)

-- Rows carved out of `S` and written one after another, with what is left of `S` at the final contents, are `S` at those contents.
theorem landedJoin (m : Memref sig .tc .vmem S16x1x768 .f32) (c : Dev nD) (q : PosShare TreeShare) (f : m.view.ty.Contents (Elt F))
    (S : Finset (Idx (m.view.loc (c : Thread nD τ)))) :
    ∀ (ps pre : List (Fin 16 × (S1x768.Idx → Elt F .f32))), ((pre ++ ps).map Prod.fst).Nodup →
      (∀ p ∈ ps, (rowM m p.1).view.set ⊆ S) →
      iprop(landed m c q f ps ∗ (m.view.loc (c : Thread nD τ)) ↦[restSet m c S ps]{q} writeRows m f (pre ++ ps))
        ⊢ ((m.view.loc (c : Thread nD τ)) ↦[S]{q} writeRows m f (pre ++ ps) : sProp 𝕄)
  | [], pre, _, _ => by rw [landed, restSet]; iintro ⟨_, H⟩; iexact H
  | p :: ps, pre, hnd, hsub => by
    have hnd' : ((pre ++ [p] ++ ps).map Prod.fst).Nodup := by rwa [← List.append_cons]
    have hp : ∀ q ∈ pre ++ ps, q.1 ≠ p.1 := by
      intro q hq e
      rw [List.map_append, List.map_cons, List.nodup_middle, ← List.map_append] at hnd
      exact (List.nodup_cons.mp hnd).1 (e ▸ List.mem_map_of_mem hq)
    rw [landed, restSet]
    iintro ⟨⟨Hp, Hps⟩, HR⟩
    rw [List.append_cons]
    iapply (landedJoin m c q f S ps (pre ++ [p]) hnd' (fun q hq => hsub q (List.mem_cons_of_mem _ hq)))
    isplitl [Hps]; · iexact Hps
    rw [← List.append_cons]
    iapply (joinStep (sub_restSet m c S p.1 (hsub p List.mem_cons_self) ps (fun q hq => hp q (List.mem_append_right _ hq)))
      (agree_append m f p.1 (p :: ps) pre (fun q hq => hp q (List.mem_append_left _ hq))))
    isplitl [Hp]; · iexact Hp
    iexact HR

theorem coord_lt (i : grid0.Coords) : (i 0).val < 77 := (i 0).isLt

theorem idPos_lt (i : grid0.Coords) (r : Fin 16) : 16 * (i 0).val + r.val < 1232 := by
  have := coord_lt i; omega

noncomputable abbrev idWord (i : grid0.Coords) (x0 : Vec F S1232 .i32) (r : Fin 16) : BitVec 32 :=
  x0 (ix1 (⟨16 * (i 0).val + r.val, idPos_lt i r⟩ : Fin 1232))

noncomputable def rowOf (i : grid0.Coords) (x0 : Vec F S1232 .i32) (r : Fin 16) : Fin 49408 :=
  ⟨(idWord i x0 r).toNat % 49408, Nat.mod_lt _ (by decide)⟩

noncomputable def gatherOut (c : Dev nD) (i : grid0.Coords) (x0 : Vec F S1232 .i32) (fh0 : HbBuf (F := F) c hbM) : Vec F S16x1x768 .f32 :=
  fun j => hbM.view.read (Elt F) fh0 (ix2 (rowOf i x0 (j 0)) (j 2))

theorem gatherOut_apply (c : Dev nD) (i : grid0.Coords) (x0 : Vec F S1232 .i32) (fh0 : HbBuf (F := F) c hbM)
    (r : Fin 16) (d : Fin 768) (h : (idWord i x0 r).toNat < 49408) :
    gatherOut c i x0 fh0 (ix3 r (0 : Fin 1) d)
      = hbM.view.read (Elt F) fh0 (ix2 (⟨(idWord i x0 r).toNat, h⟩ : Fin 49408) d) := by
  show hbM.view.read (Elt F) fh0 (ix2 (rowOf i x0 r) d) = _
  have e : rowOf i x0 r = ⟨(idWord i x0 r).toNat, h⟩ := Fin.ext (Nat.mod_eq_of_lt h)
  rw [e]

theorem rowInbHb (w : BitVec 32) (h : w.toNat < 49408) :
    ∀ a, (![w.toNat, 0] : Fin 2 → ℕ) a + S1x768.size a ≤ S49408x768.size a := by
  intro a
  match a with
  | ⟨0, _⟩ => show w.toNat + 1 ≤ 49408; omega
  | ⟨1, _⟩ => show 0 + 768 ≤ 768; omega

theorem slicePayload (c : Dev nD) (fh0 : HbBuf (F := F) c hbM) (w : BitVec 32)
    (inb : ∀ a, (![w.toNat, 0] : Fin 2 → ℕ) a + S1x768.size a ≤ S49408x768.size a) (h : w.toNat < 49408) (d : Fin 768) :
    ReadAs.same.apply (((Memref.whole main_arg3).slice (Rect.unit (s := S49408x768) ![w.toNat, 0] S1x768.size inb) (fun _ => rfl)).view.read (Elt F) fh0) (ix2 (0 : Fin 1) d)
      = hbM.view.read (Elt F) fh0 (ix2 (⟨w.toNat, h⟩ : Fin 49408) d) := by
  have e : (Rect.unit (s := S49408x768) ![w.toNat, 0] S1x768.size inb).emb (ix2 (0 : Fin 1) d) = ix2 (⟨w.toNat, h⟩ : Fin 49408) d := by
    funext a; apply Fin.ext; rw [Rect.emb_apply]
    match a with
    | ⟨0, _⟩ => show w.toNat + 1 * 0 = w.toNat; omega
    | ⟨1, _⟩ => show 0 + 1 * d.val = d.val; omega
  show hbM.view.read (Elt F) fh0 ((Rect.unit (s := S49408x768) ![w.toNat, 0] S1x768.size inb).emb (ix2 (0 : Fin 1) d)) = _
  rw [e]

theorem gatherOut_eq_payload (c : Dev nD) (i : grid0.Coords) (x0 : Vec F S1232 .i32) (fh0 : HbBuf (F := F) c hbM)
    (r : Fin 16) (w : BitVec 32) (hw : w = idWord i x0 r)
    (inb : ∀ a, (![w.toNat, 0] : Fin 2 → ℕ) a + S1x768.size a ≤ S49408x768.size a) (h : w.toNat < 49408) (d : Fin 768) :
    gatherOut c i x0 fh0 (ix3 r (0 : Fin 1) d)
      = ReadAs.same.apply (((Memref.whole main_arg3).slice (Rect.unit (s := S49408x768) ![w.toNat, 0] S1x768.size inb) (fun _ => rfl)).view.read (Elt F) fh0) (ix2 (0 : Fin 1) d) := by
  subst hw
  rw [slicePayload c fh0 _ inb h d, gatherOut_apply c i x0 fh0 r d h]

theorem idWord_eq (i : grid0.Coords) (arg1 : Memref sig .tc .smem S1232 .i32) (harg1 : arg1.IsWhole) (x0 : Vec F S1232 .i32)
    (off : Fin 1 → ℕ) (inb : ∀ a, off a + S1.size a ≤ S1232.size a) (hn : 0 < S1.numel) (r : Fin 16)
    (hoff : off = ![16 * (i 0).val + r.val]) :
    arg1.view.readAt (Elt F) (Rect.unit (s := S1232) off S1.size inb).toLoadRect (harg1.unread x0) (Shape.Idx.first hn)
      = idWord i x0 r := by
  subst hoff
  rw [View.readAt_apply, Memref.IsWhole.read_unread]
  congr 1
  funext a
  apply Fin.ext
  match a with
  | ⟨0, _⟩ => show 16 * (i 0).val + r.val + 1 * 0 = 16 * (i 0).val + r.val; omega

theorem lt_of_inb (w : BitVec 32) (h : ∀ a, (![w.toNat, 0] : Fin 2 → ℕ) a + S1x768.size a ≤ S49408x768.size a) :
    w.toNat < 49408 := by
  have h0 : w.toNat + 1 ≤ 49408 := h ⟨0, Nat.zero_lt_two⟩
  omega

theorem rows16 (p15 p14 p13 p12 p11 p10 p9 p8 p7 p6 p5 p4 p3 p2 p1 p0 : S1x768.Idx → Elt F .f32) :
    (∀ r : Fin 16, r ∈ List.map Prod.fst [(15, p15), (14, p14), (13, p13), (12, p12), (11, p11), (10, p10), (9, p9), (8, p8), (7, p7), (6, p6), (5, p5), (4, p4), (3, p3), (2, p2), (1, p1), (0, p0)])
      ∧ (List.map Prod.fst ([((15 : Fin 16), p15)] ++ [(14, p14), (13, p13), (12, p12), (11, p11), (10, p10), (9, p9), (8, p8), (7, p7), (6, p6), (5, p5), (4, p4), (3, p3), (2, p2), (1, p1), (0, p0)])).Nodup := by
  simp only [List.map_cons, List.map_nil, List.cons_append, List.nil_append]
  decide

theorem chk_of_lt (w : BitVec 32) (h : w.toNat < 49408) :
    (∀ a, (![w.toNat, 0] : Fin 2 → ℕ) a + S1x768.size a ≤ S49408x768.size a)
      ∧ ∀ a, (![w.toNat, 0] : Fin 2 → ℕ) a + S1x768.size a ≤ S49408x768.size a := ⟨rowInbHb w h, rowInbHb w h⟩

theorem word_lt (i : grid0.Coords) (arg1 : Memref sig .tc .smem S1232 .i32) (harg1 : arg1.IsWhole) (x0 : Vec F S1232 .i32)
    (off : Fin 1 → ℕ) (inb : ∀ a, off a + S1.size a ≤ S1232.size a) (r : Fin 16) (hoff : off = ![16 * (i 0).val + r.val])
    (hlt : ∀ r : Fin 16, (idWord i x0 r).toNat < 49408) :
    (arg1.view.readAt (Elt F) (Rect.unit (s := S1232) off S1.size inb).toLoadRect (harg1.unread x0)
      (Shape.Idx.first (numel1_S1.symm ▸ Nat.one_pos))).toNat < 49408 := by
  rw [idWord_eq i arg1 harg1 x0 off inb _ r hoff]; exact hlt r

abbrev toks18 (c : Dev nD) (fh0 : HbBuf (F := F) c hbM) : sProp (MU (F := F)) :=
  iprop(hbAt c hbM (Transfers.shareDrop fullShare 18) fh0 ∗ hbAt c hbM (Transfers.shareTok fullShare 18 0) fh0 ∗ hbAt c hbM (Transfers.shareTok fullShare 18 1) fh0 ∗ hbAt c hbM (Transfers.shareTok fullShare 18 2) fh0 ∗ hbAt c hbM (Transfers.shareTok fullShare 18 3) fh0 ∗ hbAt c hbM (Transfers.shareTok fullShare 18 4) fh0 ∗ hbAt c hbM (Transfers.shareTok fullShare 18 5) fh0 ∗ hbAt c hbM (Transfers.shareTok fullShare 18 6) fh0 ∗ hbAt c hbM (Transfers.shareTok fullShare 18 7) fh0 ∗ hbAt c hbM (Transfers.shareTok fullShare 18 8) fh0 ∗ hbAt c hbM (Transfers.shareTok fullShare 18 9) fh0 ∗ hbAt c hbM (Transfers.shareTok fullShare 18 10) fh0 ∗ hbAt c hbM (Transfers.shareTok fullShare 18 11) fh0 ∗ hbAt c hbM (Transfers.shareTok fullShare 18 12) fh0 ∗ hbAt c hbM (Transfers.shareTok fullShare 18 13) fh0 ∗ hbAt c hbM (Transfers.shareTok fullShare 18 14) fh0 ∗ hbAt c hbM (Transfers.shareTok fullShare 18 15) fh0 ∗ hbAt c hbM (Transfers.shareTok fullShare 18 16) fh0 ∗ hbAt c hbM (Transfers.shareTok fullShare 18 17) fh0)

theorem toks18_eq (c : Dev nD) (fh0 : HbBuf (F := F) c hbM) :
    iprop(hbAt c hbM (Transfers.shareDrop fullShare 18) fh0 ∗ bigSep Finset.univ fun j : Fin 18 => hbAt c hbM (Transfers.shareTok fullShare 18 j) fh0)
      = toks18 c fh0 := by
  rw [bigSep_univ_eq_bigSepL [(0 : Fin 18), 1, 2, 3, 4, 5, 6, 7, 8, 9, 10, 11, 12, 13, 14, 15, 16, 17] (by decide) (by decide)]; rfl

set_option sl_exec.rejoinHeartbeats 100 in
set_option sl_exec.dmaWindow true in
set_option sl_exec.dmaWindowSet true in
set_option maxHeartbeats 8000000 in
-- Sixteen disjoint rows, each written once with the table's row at its id: the block ends at `gatherOut`.
theorem gatherRunG (c : Dev nD) (i : grid0.Coords) (arg1 : Memref sig .tc .smem S1232 .i32) (harg1 : arg1.IsWhole)
    (arg3 : Memref sig .tc .vmem S16x1x768 .f32) (harg3 : arg3.IsWhole)
    (x0 : Vec F S1232 .i32) (fh0 : HbBuf (F := F) c hbM) (hlt : ∀ r : Fin 16, (idWord i x0 r).toNat < 49408)
    (W : Waits sig Unit) (K : PUnit → sProp (MU (F := F))) :
    iprop(owns (c : Thread nD τ) arg1 fullShare x0 ∗ (∃ d, owns (c : Thread nD τ) arg3 fullShare d) ∗ sems16 c ∗ hbPt c hbM fh0 ∗ owes (c : Thread nD τ) 0 W
        ∗ (iprop(owns (c : Thread nD τ) arg1 fullShare x0 ∗ owns (c : Thread nD τ) arg3 fullShare (gatherOut c i x0 fh0) ∗ sems16 c ∗ hbPt c hbM fh0 ∗ (∃ W', owes (c : Thread nD τ) 0 W')) -∗ K ⟨⟩))
      ⊢ wp frame (wpE (defs₀ (F := F)) Variants.none c none) Set.univ (cc0__gather_kernel i arg1 harg1 hbM (Memref.isWhole_whole _) arg3 harg3 cc0_scratch0) K := by
  have k0_hw1 : k0_chk1 _ := chk_of_lt _ (word_lt i arg1 harg1 x0 _ (k0_off1_inb i) 0 (k0_off1_eq i) hlt)
  have k0_hw2 : k0_chk2 _ := chk_of_lt _ (word_lt i arg1 harg1 x0 _ (k0_off3_inb i) 1 (k0_off3_eq i) hlt)
  have k0_hw3 : k0_chk3 _ := chk_of_lt _ (word_lt i arg1 harg1 x0 _ (k0_off5_inb i) 2 (k0_off5_eq i) hlt)
  have k0_hw4 : k0_chk4 _ := chk_of_lt _ (word_lt i arg1 harg1 x0 _ (k0_off7_inb i) 3 (k0_off7_eq i) hlt)
  have k0_hw5 : k0_chk5 _ := chk_of_lt _ (word_lt i arg1 harg1 x0 _ (k0_off9_inb i) 4 (k0_off9_eq i) hlt)
  have k0_hw6 : k0_chk6 _ := chk_of_lt _ (word_lt i arg1 harg1 x0 _ (k0_off11_inb i) 5 (k0_off11_eq i) hlt)
  have k0_hw7 : k0_chk7 _ := chk_of_lt _ (word_lt i arg1 harg1 x0 _ (k0_off13_inb i) 6 (k0_off13_eq i) hlt)
  have k0_hw8 : k0_chk8 _ := chk_of_lt _ (word_lt i arg1 harg1 x0 _ (k0_off15_inb i) 7 (k0_off15_eq i) hlt)
  have k0_hw9 : k0_chk9 _ := chk_of_lt _ (word_lt i arg1 harg1 x0 _ (k0_off17_inb i) 8 (k0_off17_eq i) hlt)
  have k0_hw10 : k0_chk10 _ := chk_of_lt _ (word_lt i arg1 harg1 x0 _ (k0_off19_inb i) 9 (k0_off19_eq i) hlt)
  have k0_hw11 : k0_chk11 _ := chk_of_lt _ (word_lt i arg1 harg1 x0 _ (k0_off21_inb i) 10 (k0_off21_eq i) hlt)
  have k0_hw12 : k0_chk12 _ := chk_of_lt _ (word_lt i arg1 harg1 x0 _ (k0_off23_inb i) 11 (k0_off23_eq i) hlt)
  have k0_hw13 : k0_chk13 _ := chk_of_lt _ (word_lt i arg1 harg1 x0 _ (k0_off25_inb i) 12 (k0_off25_eq i) hlt)
  have k0_hw14 : k0_chk14 _ := chk_of_lt _ (word_lt i arg1 harg1 x0 _ (k0_off27_inb i) 13 (k0_off27_eq i) hlt)
  have k0_hw15 : k0_chk15 _ := chk_of_lt _ (word_lt i arg1 harg1 x0 _ (k0_off29_inb i) 14 (k0_off29_eq i) hlt)
  have k0_hw16 : k0_chk16 _ := rowInbHb _ (word_lt i arg1 harg1 x0 _ (k0_off31_inb i) 15 (k0_off31_eq i) hlt)
  simp only [cc0__gather_kernel_eq_skeleton]; unfold cc0__gather_kernel_skel
  unfold owns sems16
  iintro ⟨⟨%f0, %hf0, H0⟩, ⟨%d1, %f1, -, H1⟩, ⟨Hq0, Hq1, Hq2, Hq3, Hq4, Hq5, Hq6, Hq7, Hq8, Hq9, Hq10, Hq11, Hq12, Hq13, Hq14, Hq15⟩, Hh0, HW, Hk⟩
  obtain rfl := harg1.eq_unread hf0
  ihave HC' := ((Transfers.pointsTo_toks_split (Ix := Unit) (Name := ℕ) (U := Pipeline.UD sig nD τ) (Lvl := ℕ) fullShare 18).trans
    (Entails.of_eq (toks18_eq c fh0))) $$ Hh0
  icases HC' with ⟨HCr, HC0, HC1, HC2, HC3, HC4, HC5, HC6, HC7, HC8, HC9, HC10, HC11, HC12, HC13, HC14, HC15, HC16, HC17⟩
  sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16)
  ihave H1 := (landedJoin arg3 c _ f1 _ [(14,_), (13,_), (12,_), (11,_), (10,_), (9,_), (8,_), (7,_), (6,_), (5,_), (4,_), (3,_), (2,_), (1,_), (0,_)] [(15,_)] ?_ (fun p _ => rowSub arg3 p.1)) $$ [H1_2 H1_3 H1_4 H1_5 H1_6 H1_7 H1_8 H1_9 H1_10 H1_11 H1_12 H1_13 H1_14 H1_15 H1_16 H1]
  pick_goal 2
  · dsimp only [landed]
    isplitr [H1]
    · isplitl [H1_16]; · iexact H1_16
      isplitl [H1_15]; · iexact H1_15
      isplitl [H1_14]; · iexact H1_14
      isplitl [H1_13]; · iexact H1_13
      isplitl [H1_12]; · iexact H1_12
      isplitl [H1_11]; · iexact H1_11
      isplitl [H1_10]; · iexact H1_10
      isplitl [H1_9]; · iexact H1_9
      isplitl [H1_8]; · iexact H1_8
      isplitl [H1_7]; · iexact H1_7
      isplitl [H1_6]; · iexact H1_6
      isplitl [H1_5]; · iexact H1_5
      isplitl [H1_4]; · iexact H1_4
      isplitl [H1_3]; · iexact H1_3
      isplitl [H1_2]; · iexact H1_2
      iempintro
    · iexact H1
  · exact (rows16 _ _ _ _ _ _ _ _ _ _ _ _ _ _ _ _).2
  sl_step
  iapply Hk
  isplitl [H0]
  · iexists _; isplitr; · ipureintro; exact harg1.read_unread _
    iexact H0
  isplitl [H1]
  · iexists _; isplitr; swap; · iexact H1
    ipureintro
    refine readBack arg3 f1 [(15,_), (14,_), (13,_), (12,_), (11,_), (10,_), (9,_), (8,_), (7,_), (6,_), (5,_), (4,_), (3,_), (2,_), (1,_), (0,_)] (gatherOut c i x0 fh0) ?_ ⟨?_, ?_, ?_, ?_, ?_, ?_, ?_, ?_, ?_, ?_, ?_, ?_, ?_, ?_, ?_, ?_⟩
    · exact (rows16 _ _ _ _ _ _ _ _ _ _ _ _ _ _ _ _).1
    · intro d; sl_unfold_run_names; exact gatherOut_eq_payload c i x0 fh0 15 _ (idWord_eq i arg1 harg1 x0 _ (k0_off31_inb i) _ 15 (k0_off31_eq i)) (k0_off32_inb _ k0_hw16) (lt_of_inb _ k0_hw16) d
    · intro d; sl_unfold_run_names; exact gatherOut_eq_payload c i x0 fh0 14 _ (idWord_eq i arg1 harg1 x0 _ (k0_off29_inb i) _ 14 (k0_off29_eq i)) (k0_off30_inb _ k0_hw15) (lt_of_inb _ k0_hw15.1) d
    · intro d; sl_unfold_run_names; exact gatherOut_eq_payload c i x0 fh0 13 _ (idWord_eq i arg1 harg1 x0 _ (k0_off27_inb i) _ 13 (k0_off27_eq i)) (k0_off28_inb _ k0_hw14) (lt_of_inb _ k0_hw14.1) d
    · intro d; sl_unfold_run_names; exact gatherOut_eq_payload c i x0 fh0 12 _ (idWord_eq i arg1 harg1 x0 _ (k0_off25_inb i) _ 12 (k0_off25_eq i)) (k0_off26_inb _ k0_hw13) (lt_of_inb _ k0_hw13.1) d
    · intro d; sl_unfold_run_names; exact gatherOut_eq_payload c i x0 fh0 11 _ (idWord_eq i arg1 harg1 x0 _ (k0_off23_inb i) _ 11 (k0_off23_eq i)) (k0_off24_inb _ k0_hw12) (lt_of_inb _ k0_hw12.1) d
    · intro d; sl_unfold_run_names; exact gatherOut_eq_payload c i x0 fh0 10 _ (idWord_eq i arg1 harg1 x0 _ (k0_off21_inb i) _ 10 (k0_off21_eq i)) (k0_off22_inb _ k0_hw11) (lt_of_inb _ k0_hw11.1) d
    · intro d; sl_unfold_run_names; exact gatherOut_eq_payload c i x0 fh0 9 _ (idWord_eq i arg1 harg1 x0 _ (k0_off19_inb i) _ 9 (k0_off19_eq i)) (k0_off20_inb _ k0_hw10) (lt_of_inb _ k0_hw10.1) d
    · intro d; sl_unfold_run_names; exact gatherOut_eq_payload c i x0 fh0 8 _ (idWord_eq i arg1 harg1 x0 _ (k0_off17_inb i) _ 8 (k0_off17_eq i)) (k0_off18_inb _ k0_hw9) (lt_of_inb _ k0_hw9.1) d
    · intro d; sl_unfold_run_names; exact gatherOut_eq_payload c i x0 fh0 7 _ (idWord_eq i arg1 harg1 x0 _ (k0_off15_inb i) _ 7 (k0_off15_eq i)) (k0_off16_inb _ k0_hw8) (lt_of_inb _ k0_hw8.1) d
    · intro d; sl_unfold_run_names; exact gatherOut_eq_payload c i x0 fh0 6 _ (idWord_eq i arg1 harg1 x0 _ (k0_off13_inb i) _ 6 (k0_off13_eq i)) (k0_off14_inb _ k0_hw7) (lt_of_inb _ k0_hw7.1) d
    · intro d; sl_unfold_run_names; exact gatherOut_eq_payload c i x0 fh0 5 _ (idWord_eq i arg1 harg1 x0 _ (k0_off11_inb i) _ 5 (k0_off11_eq i)) (k0_off12_inb _ k0_hw6) (lt_of_inb _ k0_hw6.1) d
    · intro d; sl_unfold_run_names; exact gatherOut_eq_payload c i x0 fh0 4 _ (idWord_eq i arg1 harg1 x0 _ (k0_off9_inb i) _ 4 (k0_off9_eq i)) (k0_off10_inb _ k0_hw5) (lt_of_inb _ k0_hw5.1) d
    · intro d; sl_unfold_run_names; exact gatherOut_eq_payload c i x0 fh0 3 _ (idWord_eq i arg1 harg1 x0 _ (k0_off7_inb i) _ 3 (k0_off7_eq i)) (k0_off8_inb _ k0_hw4) (lt_of_inb _ k0_hw4.1) d
    · intro d; sl_unfold_run_names; exact gatherOut_eq_payload c i x0 fh0 2 _ (idWord_eq i arg1 harg1 x0 _ (k0_off5_inb i) _ 2 (k0_off5_eq i)) (k0_off6_inb _ k0_hw3) (lt_of_inb _ k0_hw3.1) d
    · intro d; sl_unfold_run_names; exact gatherOut_eq_payload c i x0 fh0 1 _ (idWord_eq i arg1 harg1 x0 _ (k0_off3_inb i) _ 1 (k0_off3_eq i)) (k0_off4_inb _ k0_hw2) (lt_of_inb _ k0_hw2.1) d
    · intro d; sl_unfold_run_names; exact gatherOut_eq_payload c i x0 fh0 0 _ (idWord_eq i arg1 harg1 x0 _ (k0_off1_inb i) _ 0 (k0_off1_eq i)) (k0_off2_inb _ k0_hw1) (lt_of_inb _ k0_hw1.1) d
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [HCr HC0 HC1 HC2 HC3 HC4 HC5 HC6 HC7 HC8 HC9 HC10 HC11 HC12 HC13 HC14 HC15 HC16 HC17]
  · iapply ((Entails.of_eq (toks18_eq c fh0).symm).trans
      (Transfers.pointsTo_toks_join (Ix := Unit) (Name := ℕ) (U := Pipeline.UD sig nD τ) (Lvl := ℕ) fullShare 18))
    isplitl [HCr]; · iexact HCr
    isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    isplitl [HC7]; · iexact HC7
    isplitl [HC8]; · iexact HC8
    isplitl [HC9]; · iexact HC9
    isplitl [HC10]; · iexact HC10
    isplitl [HC11]; · iexact HC11
    isplitl [HC12]; · iexact HC12
    isplitl [HC13]; · iexact HC13
    isplitl [HC14]; · iexact HC14
    isplitl [HC15]; · iexact HC15
    isplitl [HC16]; · iexact HC16
    iexact HC17
  iexists _; iexact HW

end Cert.KernelIdeal.Gather

end
-- ==== Proof.KICombine.lean ====
import proofs.«402305_j66125316489726_3_alg».proof.Proof.Gen.KernelIdeal.Loops
import proofs.«402305_j66125316489726_3_alg».proof.Proof.Gen.KernelIdeal.Skeleton
import Idealize.ShloMosaic.Lib.Pipeline.Frame
import Idealize.ShloMosaic.Lib.Pipeline.Value
import Idealize.ShloMosaic.Lib.Ring
import Idealize.ShloMosaic.Lib.Writes
import Idealize.ShloMosaic.Lib.WholeRead
import Idealize.ShloMosaic.Lib.ValueIdx
import Idealize.ShloMosaic.Lib.Exec
import Idealize.ShloMosaic.Lib.Tactic

set_option maxRecDepth 16384
set_option maxHeartbeats 4000000

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx

variable (𝒱 : Variants) (c : Dev nD) (bd : Option 𝒱.V) (E : Set ℕ) (i : grid1.Coords)
  (arg2 : Memref sig .tc .vmem S1x77x768 .f32) (harg2 : arg2.IsWhole) (arg3 : Memref sig .tc .vmem S39x16x768 .f32) (harg3 : arg3.IsWhole)
  (arg4 : Memref sig .tc .vmem S1x77x16 .f32) (harg4 : arg4.IsWhole) (arg5 : Memref sig .tc .vmem S1x1x77 .f32) (harg5 : arg5.IsWhole)
  (arg6 : Memref sig .tc .vmem S1x39x77x768 .f32) (harg6 : arg6.IsWhole)
  (v0 : Vec F S1x77x768 .f32) (v2 : Vec F S1x77x16 .f32) (v4 : Vec F S1x1x77 .f32)
  (X_arg3 : BufTy.Contents (Elt F) arg3.view.ty) (x : Vec F S39x16x768 .f32)

abbrev TripC (f_arg6 : BufTy.Contents (Elt F) arg6.view.ty) : sProp 𝕄 :=
  iprop((arg3.view.loc (c : Thread nD τ) ↦[arg3.view.set]{fullShare} X_arg3) ∗ (arg6.view.loc (c : Thread nD τ) ↦[arg6.view.set]{fullShare} f_arg6))

noncomputable def tripLC (k : Fin k1_t1_loop.trips) : List (View.Piece (Elt F) S1x39x77x768 .f32) :=
  [⟨Rect.unit (s := S1x39x77x768) (k1_off2 k) S1x1x77x768.size (k1_off2_inb k),
    k1_pay1 v0 v2 v4 (View.readAt (Elt F) arg3.view (Rect.unit (s := S39x16x768) (k1_off1 k) S1x16x768.size (k1_off1_inb k)).toLoadRect X_arg3)⟩]

theorem tripC_run (k : Fin k1_t1_loop.trips) (f_arg6 : BufTy.Contents (Elt F) arg6.view.ty) :
    TripC (F := F) c arg3 arg6 X_arg3 f_arg6
      ⊢ wp frame (wpE (defs₀ (F := F)) 𝒱 (c : Thread nD τ) bd) E (k1_t1_body (F := F) i arg2 harg2 arg3 harg3 arg4 harg4 arg5 harg5 arg6 harg6 v0 v2 v4 k PUnit.unit)
          (fun _ => TripC (F := F) c arg3 arg6 X_arg3 (arg6.view.writes (Elt F) f_arg6 (tripLC arg3 v0 v2 v4 X_arg3 k))) := by
  have hk : k.val < 39 := Nat.lt_of_lt_of_le k.isLt k1_t1_abs.2.1
  unfold k1_t1_body tripLC
  iintro ⟨HR_arg3, HW_arg6⟩
  sl_exec
  sl_step
  sl_close

noncomputable def pbC : ℕ → List (View.Piece (Elt F) S1x39x77x768 .f32)
  | 0 => []
  | k + 1 => if h : k < k1_t1_loop.trips then tripLC arg3 v0 v2 v4 X_arg3 ⟨k, h⟩ ++ pbC k else pbC k

theorem pbC_succ (k : Fin k1_t1_loop.trips) :
    pbC arg3 v0 v2 v4 X_arg3 (k.val + 1) = tripLC arg3 v0 v2 v4 X_arg3 k ++ pbC arg3 v0 v2 v4 X_arg3 k.val := by
  rw [pbC]; exact dif_pos k.isLt

abbrev invC (G_arg6 : BufTy.Contents (Elt F) arg6.view.ty) (k : ℕ) (_u : PUnit) : sProp 𝕄 :=
  iprop((arg3.view.loc (c : Thread nD τ) ↦[arg3.view.set]{fullShare} X_arg3) ∗ (∃ f, (arg6.view.loc (c : Thread nD τ) ↦[arg6.view.set]{fullShare} f) ∗ ⌜f = arg6.view.writes (Elt F) G_arg6 (pbC arg3 v0 v2 v4 X_arg3 k)⌝))

set_option warn.classDefReducibility false in
@[sl_loop] def loopInvC (G_arg6 : BufTy.Contents (Elt F) arg6.view.ty) :
    LoopInvTy_k1_t1 (F := F) Unit ℕ (Pipeline.UD sig nD τ) ℕ 𝒱 c bd E i arg2 harg2 arg3 harg3 arg4 harg4 arg5 harg5 arg6 harg6 v0 v2 v4 where
  inv := invC (F := F) c arg3 arg6 v0 v2 v4 X_arg3 G_arg6
  step k acc := by
    iintro ⟨HR_arg3, ⟨%f_arg6, HW_arg6, %h_arg6⟩⟩
    iapply (wp_wand_r Idealize.ShloMosaic.frame (wpE (defs₀ (F := F)) 𝒱 (c : Thread nD τ) bd) E)
    isplitl [HR_arg3 HW_arg6]
    · iapply (tripC_run (F := F) 𝒱 c bd E i arg2 harg2 arg3 harg3 arg4 harg4 arg5 harg5 arg6 harg6 v0 v2 v4 X_arg3 k f_arg6)
      isplitl [HR_arg3]; · iexact HR_arg3
      iexact HW_arg6
    · iintro %_ ⟨HR_arg3, HW_arg6⟩
      isplitl [HR_arg3]; · iexact HR_arg3
      rw [pbC_succ]
      iexists _; isplitl [HW_arg6]; · iexact HW_arg6
      ipureintro; rw [h_arg6, ← View.writes_append]

theorem off1_val : ∀ k : Fin k1_t1_loop.trips, k1_off1 k 0 = k.val ∧ k1_off1 k 1 = 0 ∧ k1_off1 k 2 = 0 := by decide +kernel
theorem off2_val : ∀ k : Fin k1_t1_loop.trips, k1_off2 k 0 = 0 ∧ k1_off2 k 1 = k.val ∧ k1_off2 k 2 = 0 ∧ k1_off2 k 3 = 0 := by decide +kernel

theorem readAt_whole_unread {sp : Space} {S : Shape} {e : EltTy} {m : Memref sig .tc sp S e} (h : m.IsWhole) (X : S.Idx → Elt F e)
    {off : Fin S.rank → Nat} (hoff : off = fun _ => 0) (inb : ∀ a, off a + S.size a ≤ S.size a) :
    View.readAt (Elt F) m.view (Rect.unit off S.size inb).toLoadRect (h.unread X) = X := by
  refine (View.readAt_eq_ld m.view (h.unread X) (Rect.unit off S.size inb)).trans ?_
  rw [h.read_unread]
  exact View.ld_unit_zero hoff inb X

theorem zero3 : (![0, 0, 0] : Fin 3 → ℕ) = fun _ => 0 := by funext a; fin_cases a <;> rfl

noncomputable def rowOf (k : Fin 39) : Vec F S1x16x768 .f32 := fun y => x (ix3 k (y 1) (y 2))

noncomputable def combineOut : Vec F S1x39x77x768 .f32 :=
  fun j => k1_pay1 v0 v2 v4 (rowOf x (j 1)) (ix4 0 0 (j 2) (j 3))

theorem piece_eq (k : Fin k1_t1_loop.trips) (x' : S1x1x77x768.Idx) :
    k1_pay1 v0 v2 v4 (View.readAt (Elt F) arg3.view (Rect.unit (s := S39x16x768) (k1_off1 k) S1x16x768.size (k1_off1_inb k)).toLoadRect (harg3.unread x)) x'
      = combineOut v0 v2 v4 x ((Rect.unit (s := S1x39x77x768) (k1_off2 k) S1x1x77x768.size (k1_off2_inb k)).emb x') := by
  obtain ⟨a0, a1, a2, a3⟩ := off2_val k
  obtain ⟨b0, b1, b2⟩ := off1_val k
  have hx0 : (x' 0 : ℕ) < 1 := (x' 0).isLt
  have hx1 : (x' 1 : ℕ) < 1 := (x' 1).isLt
  set j := (Rect.unit (s := S1x39x77x768) (k1_off2 k) S1x1x77x768.size (k1_off2_inb k)).emb x'
  have e1 : (j 1 : ℕ) = k1_off2 k 1 + 1 * (x' 1 : ℕ) := rfl
  have e2 : (j 2 : ℕ) = k1_off2 k 2 + 1 * (x' 2 : ℕ) := rfl
  have e3 : (j 3 : ℕ) = k1_off2 k 3 + 1 * (x' 3 : ℕ) := rfl
  have hrow : View.readAt (Elt F) arg3.view (Rect.unit (s := S39x16x768) (k1_off1 k) S1x16x768.size (k1_off1_inb k)).toLoadRect (harg3.unread x) = rowOf x (j 1) := by
    refine funext fun (y : S1x16x768.Idx) => ?_
    have hy0 : (y 0 : ℕ) < 1 := (y 0).isLt
    refine (harg3.readAt_unread x (Rect.unit (s := S39x16x768) (k1_off1 k) S1x16x768.size (k1_off1_inb k)).toLoadRect y).trans (congrArg x (funext fun a => ?_))
    match a with
    | ⟨0, _⟩ => exact Fin.ext (show k1_off1 k 0 + 1 * (y 0 : ℕ) = (j 1 : ℕ) by omega)
    | ⟨1, _⟩ => exact Fin.ext (show k1_off1 k 1 + 1 * (y 1 : ℕ) = (y 1 : ℕ) by omega)
    | ⟨2, _⟩ => exact Fin.ext (show k1_off1 k 2 + 1 * (y 2 : ℕ) = (y 2 : ℕ) by omega)
  have hidx : x' = ix4 0 0 (j 2) (j 3) := by
    funext a
    match a with
    | ⟨0, _⟩ => exact Fin.ext (show (x' 0 : ℕ) = 0 by omega)
    | ⟨1, _⟩ => exact Fin.ext (show (x' 1 : ℕ) = 0 by omega)
    | ⟨2, _⟩ => exact Fin.ext (show (x' 2 : ℕ) = (j 2 : ℕ) by omega)
    | ⟨3, _⟩ => exact Fin.ext (show (x' 3 : ℕ) = (j 3 : ℕ) by omega)
  rw [hrow]
  exact congrArg (k1_pay1 v0 v2 v4 (rowOf x (j 1))) hidx

theorem pieces_pbC :
    ∀ n : ℕ, ∀ p ∈ pbC arg3 v0 v2 v4 (harg3.unread x) n, ∀ x' : p.1.shape.Idx, p.2 x' = combineOut v0 v2 v4 x (p.1.emb x')
  | 0, p, hp, _ => absurd hp List.not_mem_nil
  | n + 1, p, hp, x' => by
    rw [pbC] at hp
    split at hp
    · rename_i h
      rcases List.mem_append.mp hp with hp | hp
      · obtain rfl := List.mem_singleton.mp hp
        exact piece_eq arg3 harg3 v0 v2 v4 x ⟨n, h⟩ x'
      · exact pieces_pbC n p hp x'
    · exact pieces_pbC n p hp x'

theorem cover_pbC (y : S1x39x77x768.Idx) :
    ∃ p ∈ pbC arg3 v0 v2 v4 X_arg3 k1_t1_loop.trips, y ∈ p.1.set :=
  View.cover_of_tiledL (pbC arg3 v0 v2 v4 X_arg3 k1_t1_loop.trips) S1x1x77x768.size (by sl_kernel_rfl) y

theorem read_out (f6 : BufTy.Contents (Elt F) arg6.view.ty) :
    arg6.view.read (Elt F) (arg6.view.writes (Elt F) f6 (pbC arg3 v0 v2 v4 (harg3.unread x) k1_t1_loop.trips)) = combineOut v0 v2 v4 x :=
  funext fun y => View.read_writes_apply_of_pieces arg6.view f6 (combineOut v0 v2 v4 x) _
    (pieces_pbC arg3 harg3 v0 v2 v4 x _) y (cover_pbC arg3 v0 v2 v4 _ y)

theorem combineRun :
    ∀ (K : PUnit → sProp 𝕄),
      iprop(owns (c : Thread nD τ) arg2 fullShare v0 ∗ owns (c : Thread nD τ) arg3 fullShare x ∗ owns (c : Thread nD τ) arg4 fullShare v2 ∗ owns (c : Thread nD τ) arg5 fullShare v4 ∗ (∃ d, owns (c : Thread nD τ) arg6 fullShare d)
          ∗ (iprop(owns (c : Thread nD τ) arg2 fullShare v0 ∗ owns (c : Thread nD τ) arg3 fullShare x ∗ owns (c : Thread nD τ) arg4 fullShare v2 ∗ owns (c : Thread nD τ) arg5 fullShare v4 ∗ owns (c : Thread nD τ) arg6 fullShare (combineOut v0 v2 v4 x)) -∗ K ⟨⟩))
        ⊢ wp frame (wpE (defs₀ (F := F)) Variants.none c none) Set.univ (cc1__combine_kernel i arg2 harg2 arg3 harg3 arg4 harg4 arg5 harg5 arg6 harg6) K := by
  intro K
  simp only [cc1__combine_kernel_eq_skeleton]; unfold cc1__combine_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2
  obtain rfl := harg3.eq_unread hf3
  obtain rfl := harg4.eq_unread hf4
  obtain rfl := harg5.eq_unread hf5
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H6
  ipureintro
  rw [readAt_whole_unread harg2 v0 zero3, readAt_whole_unread harg4 v2 zero3, readAt_whole_unread harg5 v4 zero3]
  exact read_out arg3 harg3 arg6 v0 v2 v4 x f6

end Cert.KernelIdeal.Combine
end
-- ==== Proof.KIData.lean ====
import proofs.«402305_j66125316489726_3_alg».proof.Proof.KICommon
import proofs.«402305_j66125316489726_3_alg».proof.Proof.KIGather
import proofs.«402305_j66125316489726_3_alg».proof.Proof.KICombine

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Gather Cert.KernelIdeal.Combine

section Region1

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => combineOut (iblk1 V c 0 t) (iblk1 V c 2 t) (iblk1 V c 3 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = combineOut (iblk1 V c 0 t) (iblk1 V c 2 t) (iblk1 V c 3 t) (iblk1 V c 1 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp (MU (F := F)) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp (MU (F := F)) :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (combineRun c (grid1.coords t) _ _ _ _ _ _ _ _ _ _ (iblk1 V c 0 t) (iblk1 V c 2 t) (iblk1 V c 3 t) (iblk1 V c 1 t) _)
  iframe
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Region1

section Region0

variable (V : (c : Dev nD) → (b : Ref sig .tc) → Buf (Elt F) ((c : Thread nD τ).loc b))

noncomputable abbrev osem0 : Fin 16 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MU (F := F)))
      = sems16 c := by
  rw [Pipeline.ownSems0_eq_of_list c osem0 [0, 1, 2, 3, 4, 5, 6, 7, 8, 9, 10, 11, 12, 13, 14, 15] (by decide) (by decide)]; rfl

noncomputable def H0 : Finset (Ref sig .tc) := {main_arg3}
theorem hbmPts0_eq (c : Dev nD) :
    (bigSep H0 (fun b => ((c : Thread nD τ).loc b) ↦{fullShare} V c b) : sProp (MU (F := F))) = iprop(hbPt c hbM (V c main_arg3)) := by
  rw [BI.bigSep_eq_bigSepL_of_eq [main_arg3] (by decide) (by decide)]; rfl

abbrev tblPt (c : Dev nD) : sProp (MU (F := F)) := ((c : Thread nD τ).loc main_v35) ↦{fullShare} V c main_v35

theorem tbl_owns (c : Dev nD) : tblPt V c ⊢ (owns (c : Thread nD τ) idM fullShare (V c main_v35) : sProp (MU (F := F))) :=
  Entails.of_eq (owns_whole (c : Thread nD τ) main_v35 fullShare (V c main_v35)).symm
theorem owns_tbl (c : Dev nD) : (owns (c : Thread nD τ) idM fullShare (V c main_v35) : sProp (MU (F := F))) ⊢ tblPt V c :=
  Entails.of_eq (owns_whole (c : Thread nD τ) main_v35 fullShare (V c main_v35))

def Phi0 (c : Dev nD) : sProp (MU (F := F)) := iprop(Pipeline.ΦD osem0 spec0 H0 V c ∗ tblPt V c)

abbrev Hyps0 (c : Dev nD) : Prop := ∀ (i : grid0.Coords) (r : Fin 16), (idWord i (V c main_v35) r).toNat < 49408

variable (a : (pcfg0 (F := F)).Adm)

noncomputable abbrev ms0 (t : Fin (cfg0 a).N) : Memref sig .tc .vmem S16x1x768 .f32 := spec0_0.stage ((cfg0 a).slots t 0)
noncomputable abbrev hs0 (t : Fin (cfg0 a).N) : (ms0 a t).IsWhole := hstage0_0 (((cfg0 a).slots t 0).cast nbuf0_0)

noncomputable abbrev bodyAt0 (t : Fin (cfg0 a).N) : Prog (TpuEff nD τ sig (Elt F) Λ₀ .tc) PUnit :=
  cc0__gather_kernel ((cfg0 a).grid.coords t) idM (Memref.isWhole_whole _) hbM (Memref.isWhole_whole _) (ms0 a t) (hs0 a t) cc0_scratch0

noncomputable def dat0 (c : Dev nD) : Dat τ (Elt F) Unit ℕ (Pipeline.UD sig nD τ) ℕ (cfg0 a) c where
  A w := V c (Pipeline.arrRef spec0 w)
  after w t := match w with
    | ⟨0, _⟩ => gatherOut c ((cfg0 a).grid.coords t) (V c main_v35) (V c main_arg3)
  Φ _ := Phi0 V c
  q _ := fullShare
  owed _ := 0

theorem after0_0 (c : Dev nD) (t : Fin (cfg0 a).N) : (dat0 V a c).after 0 t = gatherOut c ((cfg0 a).grid.coords t) (V c main_v35) (V c main_arg3) := by dsimp only [dat0]; rfl

def bodyPre0 (c : Dev nD) (t : Fin (cfg0 a).N) : sProp (MU (F := F)) :=
  iprop((dat0 V a c).Φ t.castSucc ∗ (dat0 V a c).owesAt () t.castSucc
    ∗ (∃ d, owns (c : Thread nD τ) (ms0 a t) fullShare ((dat0 V a c).before 0 t d)))

def bodyPost0 (c : Dev nD) (t : Fin (cfg0 a).N) : sProp (MU (F := F)) :=
  iprop((dat0 V a c).Φ t.succ ∗ (dat0 V a c).owesAt () t.succ
    ∗ owns (c : Thread nD τ) (ms0 a t) fullShare ((dat0 V a c).after 0 t))

theorem sound_body0 (c : Dev nD) (hH : Hyps0 V c) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  rw [show (dat0 V a c).Φ t.succ = (dat0 V a c).Φ t.castSucc from rfl, after0_0]
  rw [show (dat0 V a c).Φ t.castSucc = Phi0 V c from rfl]; unfold Phi0
  rw [Pipeline.ΦD_eq, scopedRest0_eq, ownSems00_eq, hbmPts0_eq]
  unfold Dat.owesAt Pipeline.owesWithin
  rw [show (dat0 V a c).owed t.castSucc = 0 from rfl, show (dat0 V a c).owed t.succ = 0 from rfl]
  iintro ⟨⟨⟨HR, Hg, Hq, Hh⟩, Ht⟩, ⟨%W, -, HW⟩, ⟨%d0, H0⟩⟩
  iapply (gatherRunG c ((cfg0 a).grid.coords t) idM (Memref.isWhole_whole _) (ms0 a t) (hs0 a t) (V c main_v35) (V c main_arg3) (hH _) W _)
  isplitl [Ht]; · iapply (tbl_owns V c); iexact Ht
  isplitl [H0]; · iexists _; iexact H0
  isplitl [Hq]; · iexact Hq
  isplitl [Hh]; · iexact Hh
  isplitl [HW]; · iexact HW
  iintro ⟨Ht, H0, Hq, Hh, ⟨%W', HW'⟩⟩
  iframe
  isplitl [Ht]; · iapply (owns_tbl V c); iexact Ht
  iexists W'; isplitr; · ipureintro; exact fun _ _ => Or.inl trivial
  iexact HW'

theorem body_obligation0 (c : Dev nD) (hH : Hyps0 V c) : BodyObligation (dat0 (F := F) V a c) (defs₀ (F := F)) Variants.none () Set.univ := fun t => by
  rw [bigSep_W0, bigSep_W0]
  exact sound_body0 V a c hH t

end Region0

end Cert.KernelIdeal.Hand

end
-- ==== Proof.KIRun.lean ====
import proofs.«402305_j66125316489726_3_alg».proof.Proof.KIData
import proofs.«402305_j66125316489726_3_alg».proof.Proof.KIRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Gather Cert.KernelIdeal.Combine Cert.KernelIdeal.GenP

section Run

variable (m : (ℓ : Loc nD τ sig) → Buf (Elt F) ℓ)

noncomputable def adm : (p : Fin 2) → (pcfgs (F := F) p).Adm
  | ⟨0, _⟩ => ⟨fun k => match k with | ⟨0, _⟩ => V10 m 0 main_v35, trivial⟩
  | ⟨1, _⟩ => cfg1.toPCfg_adm

noncomputable abbrev VA : (c : Dev nD) → (b : Ref sig .tc) → Buf (Elt F) ((c : Thread nD τ).loc b) := fun c b => V10 m c b

noncomputable def W11 (c : Dev nD) : Valuation τ sig (Elt F) :=
  Pipeline.withArrays spec0 c (V10 m c) fun w => (dat0 (VA m) (adm m 0) c).arrAt w (cfg0 (adm m 0)).N

noncomputable def outsA : Outs (F := F) := fun _ r c => W11 m c r

noncomputable abbrev VB : (c : Dev nD) → (b : Ref sig .tc) → Buf (Elt F) ((c : Thread nD τ).loc b) := fun c b => V12 m (outsA m) c b

noncomputable def W13 (c : Dev nD) : Valuation τ sig (Elt F) :=
  Pipeline.withArrays spec1 c (V12 m (outsA m) c) fun w => (dat1 (VB m) c).arrAt w cfg1.N

noncomputable def outs : Outs (F := F) := fun J r c => if J = 13 then W13 m c r else W11 m c r

noncomputable def pdats : (p : Fin 2) → (c : Dev nD) → Dat τ (Elt F) Unit ℕ (Pipeline.UD sig nD τ) ℕ (Pipeline.pin pcfgs (adm m) p) c
  | ⟨0, _⟩ => fun c => dat0 (VA m) (adm m 0) c
  | ⟨1, _⟩ => fun c => dat1 (VB m) c

noncomputable abbrev 𝒱₀ : Variants := Variants.none
noncomputable abbrev Lz : GSem nD τ sig → Finset Unit := fun _ => ∅
noncomputable abbrev lvz : GSem nD τ sig → Unit → ℕ := fun _ _ => 0

abbrev Rst (c : Dev nD) : sProp (MU (F := F)) := iprop((∃ r, prngReg c r) ∗ ∃ W, owes (c : Thread nD τ) (0 : CellTallies nD τ sig Unit) W)

end Run

section Run2

variable (m : (ℓ : Loc nD τ sig) → Buf (Elt F) ℓ)

theorem hF0 (c : Dev nD) (w : Fin (cfg0 (adm m 0)).W) :
    (dat0 (VA m) (adm m 0) c).arrAt w (cfg0 (adm m 0)).N = V11 m (outs m) c (Pipeline.arrRef spec0 w) := by
  match w with
  | ⟨0, _⟩ =>
    show _ = Function.update (V10 m c) main_v36 (W11 m c main_v36) main_v36
    rw [Function.update_self]
    unfold W11; exact (Pipeline.withArrays_arr spec0 (launch0 (F := F)).win.arr_inj c (V10 m c) (fun w => (dat0 (VA m) (adm m 0) c).arrAt w (cfg0 (adm m 0)).N) 0).symm

theorem hrest0 (c : Dev nD) : ∀ b, b ∉ Finset.univ.image (Pipeline.arrRef spec0) → V11 m (outs m) c b = V10 m c b :=
  fun b hb => V11_of m (outs m) c b (by
    intro h; rw [List.mem_singleton] at h; subst h
    exact hb (Finset.mem_image.mpr ⟨0, Finset.mem_univ _, rfl⟩))

theorem hF1 (c : Dev nD) (w : Fin cfg1.W) :
    (dat1 (VB m) c).arrAt w cfg1.N = V13 m (outs m) c (Pipeline.arrRef spec1 w) := by
  match w with
  | ⟨0, _⟩ | ⟨1, _⟩ | ⟨2, _⟩ | ⟨3, _⟩ =>
    exact ((dat1 (VB m) c).arrAt_in _ rfl _).trans ((A_eq1 (VB m) c _).trans (V13_of m (outs m) c _ (by decide +revert)).symm)
  | ⟨4, _⟩ =>
    show _ = Function.update (V12 m (outs m) c) main_v47 (W13 m c main_v47) main_v47
    rw [Function.update_self]
    unfold W13; exact (Pipeline.withArrays_arr spec1 (launch1 (F := F)).win.arr_inj c (V12 m (outsA m) c) (fun w => (dat1 (VB m) c).arrAt w cfg1.N) 4).symm

theorem hrest1 (c : Dev nD) : ∀ b, b ∉ Finset.univ.image (Pipeline.arrRef spec1) → V13 m (outs m) c b = V12 m (outs m) c b :=
  fun b hb => V13_of m (outs m) c b (by
    intro h; rw [List.mem_singleton] at h; subst h
    exact hb (Finset.mem_image.mpr ⟨4, Finset.mem_univ _, rfl⟩))

set_option backward.isDefEq.respectTransparency.types false in

noncomputable def reg1 : Pipeline.RegionSeg pcfgs (adm m) (pdats m) () defs₀ 𝒱₀ Lz lvz 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VB m) c).loose
  hwaits := Pipeline.hwaits_of_owed_zero _ _ _ _ Lz lvz 1 fun _ _ => rfl
  pre c := iprop(StableHlo.held (c : Thread nD τ) (Pipeline.ucRefs τ sig) (V12 m (outsA m) c) ∗ Rst c)
  post c := iprop(StableHlo.held (c : Thread nD τ) (Pipeline.ucRefs τ sig) (V13 m (outs m) c) ∗ Rst c)
  X c := iprop(∃ r, prngReg c r)
  Y c := iprop(∃ r, prngReg c r)
  Z c := Pipeline.unscopedRest spec1 c (VB m c)
  hentry c := by
    rw [Pipeline.ownSems0_none]
    have hsplit := Pipeline.arrays_of_unscopedBufs (p := 1) pcfgs (adm m) (pdats m) (launch1 (F := F)).win (launch1 (F := F)).arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m 1 c).Φ 0 = Pipeline.ΦA spec1 c from rfl]; unfold Pipeline.ΦA
    iintro ⟨Hp, -, Hr⟩
    iframe
  hout c := by
    rw [Pipeline.ownSems0_none, show (pdats m 1 c).Φ (Fin.last _) = Pipeline.ΦA spec1 c from rfl]; unfold Pipeline.ΦA
    iintro ⟨Hr, Hp⟩
    iframe
    iempintro
  hexit c := by
    have hjoin := Pipeline.unscopedBufs_of_arrays (p := 1) pcfgs (adm m)
      (launch1 (F := F)).win (launch1 (F := F)).arr_whole c (pdats m) ((pdats m 1 c).share_full fun _ => rfl)
      (VB m c) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Run2

section Run3

variable (m : (ℓ : Loc nD τ sig) → Buf (Elt F) ℓ)

noncomputable def Hs0 : Finset (Ref sig .tc) := {main_arg3, main_v35}
theorem Hs0_sub : Hs0 ⊆ Pipeline.restRefs sig spec0 := by decide
theorem Hs0_eq (c : Dev nD) :
    (bigSep Hs0 (fun b => ((c : Thread nD τ).loc b) ↦{fullShare} VA m c b) : sProp (MU (F := F)))
      = iprop(hbPt c hbM (VA m c main_arg3) ∗ tblPt (VA m) c) := by
  rw [BI.bigSep_eq_bigSepL_of_eq [main_arg3, main_v35] (by decide) (by decide)]; rfl

theorem prefHeld0_eq (c : Dev nD) :
    (Pipeline.prefHeld (pcfgs (F := F) 0).pre c (fun _ => fullShare) (adm m 0).1 : sProp (MU (F := F))) = tblPt (VA m) c := by
  obtain rfl : c = 0 := Subsingleton.elim _ _
  unfold Pipeline.prefHeld
  rw [bigSep_W0]; rfl

theorem rest0_split (c : Dev nD) :
    (Pipeline.unscopedRest spec0 c (VA m c) : sProp (MU (F := F)))
      = iprop((bigSep Hs0 fun b => ((c : Thread nD τ).loc b) ↦{fullShare} VA m c b)
          ∗ (bigSep (Pipeline.restRefs sig spec0 \ Hs0) fun b => ((c : Thread nD τ).loc b) ↦{fullShare} VA m c b)) := by
  unfold Pipeline.unscopedRest; exact BI.bigSep_sdiff_split Hs0_sub

set_option backward.isDefEq.respectTransparency.types false in

noncomputable def reg0 (hH : ∀ c, Hyps0 (VA m) c) : Pipeline.RegionSeg pcfgs (adm m) (pdats m) () defs₀ 𝒱₀ Lz lvz 0 where
  win := (launch0 (F := F)).win.to₀
  block_pos := (launch0 (F := F)).block_pos
  stage_whole := (launch0 (F := F)).stage_whole
  K := Fin 16
  osem := osem0
  ho := ownSemFacts0
  hbody c := (body_obligation0 (VA m) (adm m 0) c (hH c)).loose
  hwaits := Pipeline.hwaits_of_owed_zero _ _ _ _ Lz lvz 0 fun _ _ => rfl
  pre c := iprop(StableHlo.held (c : Thread nD τ) (Pipeline.ucRefs τ sig) (V10 m c) ∗ Rst c)
  post c := iprop(StableHlo.held (c : Thread nD τ) (Pipeline.ucRefs τ sig) (V11 m (outs m) c) ∗ Rst c)
  X c := iprop((∃ r, prngReg c r) ∗ Pipeline.ownSems0 osem0 c ∗ hbPt c hbM (VA m c main_arg3))
  Y c := iprop((∃ r, prngReg c r) ∗ hbPt c hbM (VA m c main_arg3) ∗ tblPt (VA m) c)
  Z c := bigSep (Pipeline.restRefs sig spec0 \ Hs0) fun b => ((c : Thread nD τ).loc b) ↦{fullShare} VA m c b
  hentry c := by
    have hsplit := Pipeline.arrays_of_unscopedBufs (p := 0) pcfgs (adm m) (pdats m) (launch0 (F := F)).win (launch0 (F := F)).arr_whole c
      ((pdats m 0 c).share_full fun _ => rfl) (VA m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_split m c)) $$ Hrest
    icases H' with ⟨HH, HR⟩
    ihave H'' := (Entails.of_eq (Hs0_eq m c)) $$ HH
    icases H'' with ⟨Hh, Ht⟩
    imodintro
    rw [prefHeld0_eq]
    iframe
    unfold Pipeline.Dat.owesAt Pipeline.owesWithin
    icases HO with ⟨%W, HO⟩; iexists W; isplitr; · ipureintro; exact fun _ _ => Or.inl trivial
    iexact HO
  hin c := by
    rw [show (pdats m 0 c).Φ 0 = Phi0 (VA m) c from rfl]; unfold Phi0; rw [Pipeline.ΦD_eq, hbmPts0_eq, prefHeld0_eq]
    iintro ⟨⟨Hp, Ho, Hh⟩, Ht, Hr⟩
    iframe
  hout c := by
    rw [show (pdats m 0 c).Φ (Fin.last _) = Phi0 (VA m) c from rfl]; unfold Phi0; rw [Pipeline.ΦD_eq, hbmPts0_eq]
    iintro ⟨⟨Hr, Hp, Ho, Hh⟩, Ht⟩
    iframe
  hexit c := by
    have hjoin := Pipeline.unscopedBufs_of_arrays (p := 0) pcfgs (adm m)
      (launch0 (F := F)).win (launch0 (F := F)).arr_whole c (pdats m) ((pdats m 0 c).share_full fun _ => rfl)
      (VA m c) (fun b => V11 m (outs m) c b) ((pdats m 0 c).arrAt · (cfg0 (adm m 0)).N) (hF0 m c) (hrest0 m c)
    rw [Pipeline.unscopedBufs_held] at hjoin
    iintro ⟨Ha, HO, ⟨HY, Hh, Ht⟩, HR⟩
    ihave HH := (Entails.of_eq (Hs0_eq m c).symm) $$ [Hh Ht]
    · iframe
    ihave Hrest := (Entails.of_eq (rest0_split m c).symm) $$ [HH HR]
    · iframe
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Run3

section Run4

variable (m : (ℓ : Loc nD τ sig) → Buf (Elt F) ℓ) (ρ : Dev nD → PrngReg)

set_option backward.isDefEq.respectTransparency.types false in

theorem run_main (hH : ∀ c, Hyps0 (VA m) c) :
    θ_run defs (onTc (τ := τ) (main (F := F))) ⟨m, fun _ => 0, ρ⟩ (fun r => ∀ c : Dev nD,
      r.2.mem ((c.tc : Thread nD τ).loc main_v47) = V13 m (outs m) c main_v47
      ∧ r.2.mem ((c.tc : Thread nD τ).loc main_v34) = V13 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m (EP := embL) (ι := ()) (𝒱₀ := 𝒱₀) (L := Lz) (lv := lvz) (hL := fun _ _ => rfl) (ρ := ρ) (outs := outs m) (a := adm m) (pdats := pdats m)
    (O₀ := 0) (G := fun _ => iprop(emp))
    (u₀ := (initOf (Pipeline.cells (Pipeline.pin pcfgs (adm m)) (cellOf_inj (adm m))) (Pipeline.launchToks (Pipeline.pin pcfgs (adm m)) (cellOf_inj (adm m))), 1))
    (hu₀ := by
      iintro Hu
      ihave H := (ownU_pair _ _) $$ Hu
      icases H with ⟨HP, -⟩
      imodintro
      isplitl [HP]; · iexact HP
      iapply (show (BI.emp : sProp (MU (F := F))) ⊢ bigSep Finset.univ (fun _ : Dev nD => (BI.emp : sProp (MU (F := F)))) from by rw [BI.bigSep_emp_const])
      iempintro)
    (E := fun _ c => Rst c)
    (hE0 := Pipeline.initEach Lz lvz fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m hH) (hpre0 := fun c => .rfl) (hpost0 := fun c => .rfl)
    (R1 := reg1 m) (hpre1 := fun c => .rfl) (hpost1 := fun c => .rfl)

end Run4

end Cert.KernelIdeal.Hand

end
-- ==== Proof.RefSide.lean ====
import proofs.«402305_j66125316489726_3_alg».proof.Proof.RefRead
import Idealize.ShloMosaic.Lib.ReduceAll
import Idealize.ShloMosaic.Lib.StableHlo.Predicate
import Idealize.ShloMosaic.Lib.ValueIdx

noncomputable section

namespace Cert.ReferenceIdeal.RefSide

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

theorem toInt_eq_toNat_of_nonneg (w : BitVec 32) (h : 0 ≤ w.toInt) : w.toInt = w.toNat := by
  have hc := BitVec.toInt_eq_toNat_cond w
  have hlt := w.isLt
  split at hc <;> omega

theorem clip_toNat_le (hi w : BitVec 32) (hhi : hi.toNat < 2 ^ 31) :
    (IntOp.minsi hi (IntOp.maxsi 0#32 w)).toNat ≤ hi.toNat := by
  have h0 : (0#32 : BitVec 32).toInt = 0 := by decide
  have hth : hi.toInt = hi.toNat := Predicate.toInt_eq_toNat_of_lt hhi
  unfold IntOp.minsi IntOp.maxsi
  by_cases hw : w.slt 0#32 = true
  · rw [if_pos hw]
    split
    · exact Nat.le_refl _
    · exact Nat.zero_le _
  · rw [if_neg hw]
    have hw' : 0 ≤ w.toInt := by
      simp only [BitVec.slt, h0, decide_eq_true_eq, not_lt] at hw
      exact hw
    have hwn := toInt_eq_toNat_of_nonneg w hw'
    split
    · exact Nat.le_refl _
    · rename_i hc
      simp only [BitVec.slt, decide_eq_true_eq, not_lt] at hc
      omega

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    rw [show IntOp.andi 1#1 1#1 = (1#1 : BitVec 1) from by decide]
    exact foldl_andi_ones f l (fun n hn => h n (List.mem_cons_of_mem _ hn))

theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ (fun i _ => hx i)

theorem slt_zero_of_small (w : BitVec 32) (h : w.toNat < 2 ^ 31) : IntOp.cmpi .slt w 0#32 = 0#1 := by
  refine eq_zero_of_ne_one fun e => ?_
  exact Nat.not_lt_zero _ ((Predicate.slt_iff_toNat h (by decide)).mp e)

theorem in_range_bit (w hi : BitVec 32) (hhi : hi.toNat < 2 ^ 31) (h : w.toNat ≤ hi.toNat) :
    IntOp.andi (IntOp.cmpi .sge w 0#32) (IntOp.cmpi .sle w hi) = 1#1 := by
  have hw : w.toNat < 2 ^ 31 := by omega
  rw [(Predicate.sge_iff_toNat hw (by decide)).mpr (Nat.zero_le _), (Predicate.sle_iff_toNat hw hhi).mpr h]
  decide

theorem clamp_read (w : BitVec 32) (n : Nat) (h : w.toNat ≤ n) (hn : n < 2 ^ 31) : min w.toInt.toNat n = w.toNat := by
  rw [Predicate.toInt_eq_toNat_of_lt (by omega), Int.toNat_natCast, Nat.min_eq_left h]

variable {α : Type} {w : Nat}

section Axes
variable {s si t : Shape} (D : GatherDims s si t) (j : t.Idx) (idx : IVec si w) (a : Fin s.rank)

-- on a batching axis the start and the offset are zero
theorem ax_batch (h : a ∈ D.operandBatchingDims) : (D.operandIdx j idx a).val = D.batchCoord j a := by
  show D.start j idx a + D.batchCoord j a + D.offCoord j a = _
  rw [D.start_batching j idx a h, D.offCoord_eq_zero j a fun h' => ((D.mem_sKept a).mp h').2 h, Nat.zero_add, Nat.add_zero]

-- on a collapsed axis off the batching ones only the clamped start index is left
theorem ax_start (hb : a ∉ D.operandBatchingDims) (hc : a ∈ D.collapsedSliceDims) (hm : a ∈ D.startIndexMap) (i : si.Idx)
    (hi : D.siIdx j ⟨D.startIndexMap.idxOf a, List.idxOf_lt_length_iff.2 hm⟩ = i) :
    (D.operandIdx j idx a).val = min (idx i).toInt.toNat (s.size a - D.sliceSizes a) := by
  show D.start j idx a + D.batchCoord j a + D.offCoord j a = _
  rw [D.batchCoord_eq_zero j a hb, D.offCoord_eq_zero j a fun h' => ((D.mem_sKept a).mp h').1 hc]
  unfold GatherDims.start
  rw [dif_pos hm, hi]; rfl

-- on an axis no start index names, off the batching ones, only the offset is left
theorem ax_off (hb : a ∉ D.operandBatchingDims) (hm : a ∉ D.startIndexMap) : (D.operandIdx j idx a).val = D.offCoord j a := by
  show D.start j idx a + D.batchCoord j a + D.offCoord j a = _
  rw [D.batchCoord_eq_zero j a hb]
  unfold GatherDims.start
  rw [dif_neg hm, Nat.add_zero, Nat.zero_add]

end Axes

noncomputable abbrev dRows : GatherDims S16x77 S16x77x1 S16x77 := gather_S16x77_S16x77x1_S16x77_n_1_0_0_1_2_11

theorem gather_rows (x : S16x77.Idx → α) (idx : IVec S16x77x1 w) (b : Fin 16) (l : Fin 77) :
    Host.gather dRows x idx (ix2 b l) = x (ix2 b ⟨min (idx (ix3 b l (0 : Fin 1))).toInt.toNat 76, by omega⟩) := by
  unfold Host.gather
  congr 1
  funext a
  match a with
  | ⟨0, _⟩ => exact Fin.ext ((ax_batch dRows _ idx 0 (by decide)).trans rfl)
  | ⟨1, _⟩ => exact Fin.ext (ax_start dRows _ idx 1 (by decide) (by decide) (by decide) (ix3 b l (0 : Fin 1))
      (funext fun c => Fin.ext (by match c with | ⟨0, _⟩ | ⟨1, _⟩ | ⟨2, _⟩ => rfl)))

noncomputable abbrev dEmb : GatherDims S49408x768 S16x77x1 S16x77x768 := gather_S49408x768_S16x77x1_S16x77x768_2_0_n_n_0_2_1768

theorem gather_emb (x : S49408x768.Idx → α) (idx : IVec S16x77x1 w) (b : Fin 16) (l : Fin 77) (d : Fin 768) :
    Host.gather dEmb x idx (ix3 b l d) = x (ix2 ⟨min (idx (ix3 b l (0 : Fin 1))).toInt.toNat 49407, by omega⟩ d) := by
  unfold Host.gather
  congr 1
  funext a
  match a with
  | ⟨0, _⟩ => exact Fin.ext (ax_start dEmb _ idx 0 (by decide) (by decide) (by decide) (ix3 b l (0 : Fin 1))
      (funext fun c => Fin.ext (by match c with | ⟨0, _⟩ | ⟨1, _⟩ | ⟨2, _⟩ => rfl)))
  | ⟨1, _⟩ => exact Fin.ext ((ax_off dEmb _ idx 1 (by decide) (by decide)).trans rfl)

noncomputable abbrev dRow3 : GatherDims S16x77x768 S16x77x1 S16x77x768 := gather_S16x77x768_S16x77x1_S16x77x768_2_1_0_0_1_2_11768

theorem gather_row3 (x : S16x77x768.Idx → α) (idx : IVec S16x77x1 w) (b : Fin 16) (l : Fin 77) (d : Fin 768) :
    Host.gather dRow3 x idx (ix3 b l d) = x (ix3 b ⟨min (idx (ix3 b l (0 : Fin 1))).toInt.toNat 76, by omega⟩ d) := by
  unfold Host.gather
  congr 1
  funext a
  match a with
  | ⟨0, _⟩ => exact Fin.ext ((ax_batch dRow3 _ idx 0 (by decide)).trans rfl)
  | ⟨1, _⟩ => exact Fin.ext (ax_start dRow3 _ idx 1 (by decide) (by decide) (by decide) (ix3 b l (0 : Fin 1))
      (funext fun c => Fin.ext (by match c with | ⟨0, _⟩ | ⟨1, _⟩ | ⟨2, _⟩ => rfl)))
  | ⟨2, _⟩ => exact Fin.ext ((ax_off dRow3 _ idx 2 (by decide) (by decide)).trans rfl)

noncomputable abbrev dCtx : GatherDims S117x16x768 S16x77x1 S117x16x77x768 := gather_S117x16x768_S16x77x1_S117x16x77x768_03_1_n_n_1_2_1171768

theorem gather_ctx (x : S117x16x768.Idx → α) (idx : IVec S16x77x1 w) (v : Fin 117) (b : Fin 16) (l : Fin 77) (d : Fin 768) :
    Host.gather dCtx x idx (ix4 v b l d) = x (ix3 v ⟨min (idx (ix3 b l (0 : Fin 1))).toInt.toNat 15, by omega⟩ d) := by
  unfold Host.gather
  congr 1
  funext a
  match a with
  | ⟨0, _⟩ => exact Fin.ext ((ax_off dCtx _ idx 0 (by decide) (by decide)).trans rfl)
  | ⟨1, _⟩ => exact Fin.ext (ax_start dCtx _ idx 1 (by decide) (by decide) (by decide) (ix3 b l (0 : Fin 1))
      (funext fun c => Fin.ext (by match c with | ⟨0, _⟩ | ⟨1, _⟩ | ⟨2, _⟩ => rfl)))
  | ⟨2, _⟩ => exact Fin.ext ((ax_off dCtx _ idx 2 (by decide) (by decide)).trans rfl)

variable {F : FTy → Type} [FloatOps F]
  (x0 : (⟨S16x77, .i32⟩ : BufTy).Contents (Elt F)) (x1 : (⟨S16, .i32⟩ : BufTy).Contents (Elt F))
  (x2 : (⟨S117x16x768, .f32⟩ : BufTy).Contents (Elt F)) (x3 : (⟨S49408x768, .f32⟩ : BufTy).Contents (Elt F))

theorem idx5_ix (b : Fin 16) (l : Fin 77) : idx_main_call3_v5 (ix3 b l (0 : Fin 1)) = ix2 b l := by
  funext a; refine Fin.ext ?_
  have hb := b.isLt; have hl := l.isLt
  match a with
  | ⟨0, _⟩ => show ((b.val * 77 + l.val) * 1 + 0) / 77 = b.val; omega
  | ⟨1, _⟩ => show ((b.val * 77 + l.val) * 1 + 0) % 77 = l.val; omega

theorem idx40_ix (b : Fin 16) (l : Fin 77) : idx_main_v40 (ix3 b l (0 : Fin 1)) = ix2 b l :=
  funext fun a => Fin.ext (by match a with | ⟨0, _⟩ => rfl | ⟨1, _⟩ => rfl)

theorem idx42_ix (b : Fin 16) (l : Fin 77) : idx_main_v42 (ix3 b l (0 : Fin 1)) = ix2 b l :=
  funext fun a => Fin.ext (by match a with | ⟨0, _⟩ => rfl | ⟨1, _⟩ => rfl)

theorem idx49_ix (b : Fin 16) (l : Fin 77) : idx_main_v49 (ix3 b l (0 : Fin 1)) = ix2 b l :=
  funext fun a => Fin.ext (by match a with | ⟨0, _⟩ => rfl | ⟨1, _⟩ => rfl)

theorem idx54_ix (b : Fin 16) (v : Fin 117) (l : Fin 77) (d : Fin 768) : idx_main_v54 (ix4 b v l d) = ix4 v b l d :=
  funext fun a => Fin.ext (by match a with | ⟨0, _⟩ => rfl | ⟨1, _⟩ => rfl | ⟨2, _⟩ => rfl | ⟨3, _⟩ => rfl)

theorem idx51_ix (v : Fin 117) (b : Fin 16) (l : Fin 77) (d : Fin 768) :
    idx_main_v51 (idx_main_call6_v0 (ix4 v b l d)) = ix2 b l :=
  funext fun a => Fin.ext (by match a with | ⟨0, _⟩ => rfl | ⟨1, _⟩ => rfl)

theorem idx52_ix (v : Fin 117) (b : Fin 16) (l : Fin 77) (d : Fin 768) :
    idx_main_v52 (idx_main_call6_v1 (ix4 v b l d)) = ix3 b l d :=
  funext fun a => Fin.ext (by match a with | ⟨0, _⟩ => rfl | ⟨1, _⟩ => rfl | ⟨2, _⟩ => rfl)

theorem src_range (i : S16x77.Idx) :
    (val_main_v18 (F := F) x1 i).toNat ≤ 76 := by
  rw [val_main_v18_apply, val_main_call1_v4_apply, val_main_call1_v3_apply, val_main_c_2_apply,
    val_main_call1_v2_apply, val_main_call1_v1_apply, val_main_call1_v0_apply, val_main_c_1_apply]
  exact clip_toNat_le 76#32 _ (by decide)

theorem cpos_range (i : S16x77.Idx) :
    (val_main_v24 (F := F) x1 i).toNat ≤ 15 := by
  rw [val_main_v24_apply, val_main_call2_v4_apply, val_main_call2_v3_apply, val_main_c_5_apply,
    val_main_call2_v2_apply, val_main_call2_v1_apply, val_main_call2_v0_apply, val_main_c_4_apply]
  exact clip_toNat_le 15#32 _ (by decide)

theorem src_norm (i : S16x77.Idx) :
    val_main_call3_v4 (F := F) x1 i = val_main_v18 (F := F) x1 i := by
  rw [val_main_call3_v4_apply, val_main_call3_v1_apply, val_main_call3_v0_apply, val_main_call3_c_apply,
    slt_zero_of_small _ (Nat.lt_of_le_of_lt (src_range x1 i) (by decide)), select_zero]

theorem mask3_elem (i : S16x77x1.Idx) :
    val_main_call3_v11 (F := F) x1 i = 1#1 := by
  rw [val_main_call3_v11_apply, val_main_call3_v7_apply, val_main_call3_v10_apply, val_main_call3_v6_apply,
    val_main_call3_c_2_apply, val_main_call3_v9_apply, val_main_call3_v8_apply, val_main_call3_c_1_apply,
    val_main_call3_v5_apply, src_norm]
  exact in_range_bit _ 76#32 (by decide) (src_range x1 _)

theorem mask3 (j : S16x77.Idx) :
    val_main_call3_v12 (F := F) x1 j = 1#1 := by
  unfold val_main_call3_v12
  exact reduce_andi_of_all _ _ _ _ (fun _ => rfl) (mask3_elem x1) j

theorem tok_eq (b : Fin 16) (l : Fin 77) :
    val_main_v25 (F := F) x0 x1 (ix2 b l)
      = x0 (ix2 b ⟨(val_main_v18 (F := F) x1 (ix2 b l)).toNat, Nat.lt_of_le_of_lt (src_range x1 _) (by decide)⟩) := by
  rw [val_main_v25_apply, mask3, select_one]
  unfold val_main_call3_v13
  rw [gather_rows]
  refine congrArg x0 (congrArg (fun k : Fin 77 => ix2 b k) (Fin.ext ?_))
  show min (val_main_call3_v5 (F := F) x1 (ix3 b l (0 : Fin 1))).toInt.toNat 76 = (val_main_v18 (F := F) x1 (ix2 b l)).toNat
  rw [val_main_call3_v5_apply, idx5_ix, src_norm]
  exact clamp_read _ 76 (src_range x1 _) (by decide)

theorem tok_lt (htok : ∀ i : S16x77.Idx, (x0 i).toNat < 49408) (b : Fin 16) (l : Fin 77) :
    (val_main_v25 (F := F) x0 x1 (ix2 b l)).toNat < 49408 := by
  rw [tok_eq]; exact htok _

theorem tok_norm (htok : ∀ i : S16x77.Idx, (x0 i).toNat < 49408) (j : S16x77.Idx) :
    val_main_v39 (F := F) x0 j = x0 j := by
  rw [val_main_v39_apply, val_main_v36_apply, val_main_v35_apply, val_main_c_8_apply,
    slt_zero_of_small _ (Nat.lt_trans (htok j) (by decide)), select_zero]

theorem emb_row (htok : ∀ i : S16x77.Idx, (x0 i).toNat < 49408) (b : Fin 16) (l : Fin 77) (d : Fin 768) :
    val_main_v41 (F := F) x0 x3 (ix3 b l d) = x3 (ix2 ⟨(x0 (ix2 b l)).toNat, htok _⟩ d) := by
  unfold val_main_v41
  rw [gather_emb]
  refine congrArg x3 (congrArg (fun k : Fin 49408 => ix2 k d) (Fin.ext ?_))
  show min (val_main_v40 (F := F) x0 (ix3 b l (0 : Fin 1))).toInt.toNat 49407 = (x0 (ix2 b l)).toNat
  rw [val_main_v40_apply, idx40_ix, tok_norm x0 htok]
  exact clamp_read _ 49407 (by have := htok (ix2 b l); omega) (by decide)

theorem src3_norm (i : S16x77x1.Idx) :
    val_main_call5_v4 (F := F) x1 i = val_main_v18 (F := F) x1 (idx_main_v42 i) := by
  rw [val_main_call5_v4_apply, val_main_call5_v1_apply, val_main_call5_v0_apply, val_main_call5_c_apply, val_main_v42_apply,
    slt_zero_of_small _ (Nat.lt_of_le_of_lt (src_range x1 _) (by decide)), select_zero]

theorem mask5_elem (i : S16x77x1.Idx) :
    val_main_call5_v10 (F := F) x1 i = 1#1 := by
  rw [val_main_call5_v10_apply, val_main_call5_v6_apply, val_main_call5_v9_apply, val_main_call5_v5_apply,
    val_main_call5_c_2_apply, val_main_call5_v8_apply, val_main_call5_v7_apply, val_main_call5_c_1_apply, src3_norm]
  exact in_range_bit _ 76#32 (by decide) (src_range x1 _)

theorem mask5 (j : S16x77.Idx) :
    val_main_call5_v11 (F := F) x1 j = 1#1 := by
  unfold val_main_call5_v11
  exact reduce_andi_of_all _ _ _ _ (fun _ => rfl) (mask5_elem x1) j

theorem emb_gathered (htok : ∀ i : S16x77.Idx, (x0 i).toNat < 49408)
    (b : Fin 16) (l : Fin 77) (d : Fin 768) :
    val_main_v43 (F := F) x0 x1 x3 (ix3 b l d)
      = x3 (ix2 ⟨(val_main_v25 (F := F) x0 x1 (ix2 b l)).toNat, tok_lt x0 x1 htok b l⟩ d) := by
  rw [val_main_v43_apply, val_main_call5_v13_apply, mask5, select_one]
  unfold val_main_call5_v12
  rw [gather_row3, emb_row x0 x3 htok]
  refine congrArg x3 (congrArg (fun k : Fin 49408 => ix2 k d) (Fin.ext ?_))
  show (x0 (ix2 b ⟨min (val_main_call5_v4 (F := F) x1 (ix3 b l (0 : Fin 1))).toInt.toNat 76, _⟩)).toNat
    = (val_main_v25 (F := F) x0 x1 (ix2 b l)).toNat
  rw [tok_eq]
  refine congrArg (fun k : Fin 77 => (x0 (ix2 b k)).toNat) (Fin.ext ?_)
  show min (val_main_call5_v4 (F := F) x1 (ix3 b l (0 : Fin 1))).toInt.toNat 76 = (val_main_v18 (F := F) x1 (ix2 b l)).toNat
  rw [src3_norm, idx42_ix]
  exact clamp_read _ 76 (src_range x1 _) (by decide)

theorem cpos_norm (j : S16x77.Idx) :
    val_main_v48 (F := F) x1 j = val_main_v24 (F := F) x1 j := by
  rw [val_main_v48_apply, val_main_v45_apply, val_main_v44_apply, val_main_c_10_apply,
    slt_zero_of_small _ (Nat.lt_of_le_of_lt (cpos_range x1 j) (by decide)), select_zero]

theorem ctx_row (v : Fin 117) (b : Fin 16) (l : Fin 77) (d : Fin 768) :
    val_main_v50 (F := F) x1 x2 (ix4 v b l d)
      = x2 (ix3 v ⟨(val_main_v24 (F := F) x1 (ix2 b l)).toNat, Nat.lt_of_le_of_lt (cpos_range x1 _) (by decide)⟩ d) := by
  unfold val_main_v50
  rw [gather_ctx]
  refine congrArg x2 (congrArg (fun k : Fin 16 => ix3 v k d) (Fin.ext ?_))
  show min (val_main_v49 (F := F) x1 (ix3 b l (0 : Fin 1))).toInt.toNat 15 = (val_main_v24 (F := F) x1 (ix2 b l)).toNat
  rw [val_main_v49_apply, idx49_ix, cpos_norm]
  exact clamp_read _ 15 (cpos_range x1 _) (by decide)

theorem out0_apply (htok : ∀ i : S16x77.Idx, (x0 i).toNat < 49408)
    (b : Fin 16) (v : Fin 117) (l : Fin 77) (d : Fin 768) :
    val_main_v54 (F := F) x0 x1 x2 x3 (ix4 b v l d)
      = Scalar.select (val_main_v11 (F := F) x1 (ix2 b l))
          (x2 (ix3 v ⟨(val_main_v24 (F := F) x1 (ix2 b l)).toNat, Nat.lt_of_le_of_lt (cpos_range x1 _) (by decide)⟩ d))
          (x3 (ix2 ⟨(val_main_v25 (F := F) x0 x1 (ix2 b l)).toNat, tok_lt x0 x1 htok b l⟩ d)) := by
  rw [val_main_v54_apply, idx54_ix, val_main_v53_apply, val_main_call6_v0_apply, val_main_v51_apply, idx51_ix,
    val_main_call6_v1_apply, val_main_v52_apply, idx52_ix, emb_gathered x0 x1 x3 htok, ctx_row]

end Cert.ReferenceIdeal.RefSide

end
-- ==== Proof.KIIds.lean ====
import proofs.«402305_j66125316489726_3_alg».proof.Proof.Gen.KernelIdeal.Regions
import proofs.«402305_j66125316489726_3_alg».proof.Proof.RefRead
import proofs.«402305_j66125316489726_3_alg».proof.Proof.RefSide
import proofs.«402305_j66125316489726_3_alg».proof.Pre_finite_inputs
import Idealize.ShloMosaic.Lib.Pipeline.Value
import Idealize.ShloMosaic.Lib.ValueIdx
import Idealize.ShloMosaic.Lib.StableHlo.Run
import Idealize.ShloMosaic.Lib.StableHlo.Predicate
import Idealize.ShloMosaic.Lib.ReduceAll
import Idealize.ShloMosaic.PureOps.Ideal

noncomputable section

namespace Cert.KernelIdeal.Ids

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read

variable {F : FTy → Type} [FloatOps F]

instance : Subsingleton Cert.Pre_finite_inputs.S_.Idx := ⟨fun a b => funext fun d => d.elim0⟩

theorem toNat_lt_of_signed (w : BitVec 32) (h0 : IntOp.cmpi .sge w (0#32) = 1#1) (h1 : IntOp.cmpi .slt w (49408#32) = 1#1) :
    w.toNat < 49408 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

theorem tok_of_pre [Cert.Pre_finite_inputs.Facts]
    (x0 : IVec Cert.Pre_finite_inputs.S16x77 32) (x1 : IVec Cert.Pre_finite_inputs.S16 32)
    (x2 : FVec F Cert.Pre_finite_inputs.S117x16x768 .f32) (x3 : FVec F Cert.Pre_finite_inputs.S49408x768 .f32)
    (x4 : IVec Cert.Pre_finite_inputs.S1x16 32)
    (h : Cert.Pre_finite_inputs.fn (F := F) x0 x1 x2 x3 x4 = fun _ => 1#1) : ∀ i, (x0 i).toNat < 49408 := by
  intro i
  have e := congrFun h ValueIdx.ix0
  dsimp only [Cert.Pre_finite_inputs.fn] at e
  have e2 := (IntOp.andi_eq_one.1 e).2
  have e3 := Host.reduce_andi_all _ _ _ _ _ e2 i
  have e4 := IntOp.andi_eq_one.1 e3
  exact toNat_lt_of_signed _ e4.1 e4.2

section Stages
variable (W : Valuation τ sig (Elt F))
variable (x0 : (⟨S16x77, .i32⟩ : BufTy).Contents (Elt F)) (x1 : (⟨S16, .i32⟩ : BufTy).Contents (Elt F))
  (x4 : (⟨S1x16, .i32⟩ : BufTy).Contents (Elt F))

theorem st1_v17 (h2 : W main_v2 = val_main_v2 (F := F)) (h16 : W main_v16 = val_main_v16 (F := F))
    (h14 : W main_v14 = val_main_v14 (F := F) x1) : after hostOps0_1 W main_v17 = val_main_v17 (F := F) x1 := by
  after_results_simp; simp only [cast_eq]; rw [h2, h16, h14]; rfl

theorem st3_v18 (hc1 : W main_c_1 = val_main_c_1 (F := F)) (hc2 : W main_c_2 = val_main_c_2 (F := F))
    (h17 : W main_v17 = val_main_v17 (F := F) x1) : after hostOps0_3 W main_v18 = val_main_v18 (F := F) x1 := by
  after_results_simp; simp only [cast_eq]; rw [hc1, hc2, h17]; rfl

theorem st4_v23 (h2 : W main_v2 = val_main_v2 (F := F)) (h0 : W main_v0 = val_main_v0 (F := F) x1) :
    after hostOps0_4 W main_v23 = val_main_v23 (F := F) x1 := by
  after_results; rw [h2, h0]; rfl

theorem st5_v24 (hc4 : W main_c_4 = val_main_c_4 (F := F)) (hc5 : W main_c_5 = val_main_c_5 (F := F))
    (h23 : W main_v23 = val_main_v23 (F := F) x1) : after hostOps0_5 W main_v24 = val_main_v24 (F := F) x1 := by
  after_results_simp; simp only [cast_eq]; rw [hc4, hc5, h23]; rfl

theorem st6_v25 (h18 : W main_v18 = val_main_v18 (F := F) x1) (h0 : W main_arg0 = x0) :
    after hostOps0_6 W main_v25 = val_main_v25 (F := F) x0 x1 := by
  after_results_simp; simp only [cast_eq]; rw [h18, h0]; rfl

theorem st7_v33 (h24 : W main_v24 = val_main_v24 (F := F) x1) (h4 : W main_arg4 = x4) :
    after hostOps0_7 W main_v33 = val_main_v33 (F := F) x1 x4 := by
  after_results; rw [h24, h4]; rfl

theorem st8_v34 (h11 : W main_v11 = val_main_v11 (F := F) x1) (h33 : W main_v33 = val_main_v33 (F := F) x1 x4)
    (h25 : W main_v25 = val_main_v25 (F := F) x0 x1) : after hostOps0_8 W main_v34 = val_main_v34 (F := F) x0 x1 x4 := by
  after_results_simp; simp only [cast_eq]; rw [h11, h33, h25]; rfl

theorem st9_v35 : after hostOps0_9 W main_v35 = fun i => shapeCast S1232 (W main_v25) shapeCasts_S16x77_S1232 i := by
  after_results; rfl

end Stages

section Chain
variable (m : (ℓ : Loc nD τ sig) → Buf (Elt F) ℓ) (c : Dev nD)

theorem V2_v17 : V2 m c main_v17 = val_main_v17 (F := F) (m ((c : Thread nD τ).loc main_arg1)) :=
  st1_v17 (V1 m c) _ (by after_results; rfl) (by after_results; rfl) (by after_results; rfl)

theorem V4_v18 : V4 m c main_v18 = val_main_v18 (F := F) (m ((c : Thread nD τ).loc main_arg1)) :=
  st3_v18 (V3 m c) _ (by after_results; rfl) (by after_results; rfl) ((V3_of m c main_v17 (by decide)).trans (V2_v17 m c))

theorem V6_v24 : V6 m c main_v24 = val_main_v24 (F := F) (m ((c : Thread nD τ).loc main_arg1)) :=
  st5_v24 (V5 m c) _ (by after_results; rfl) (by after_results; rfl) (st4_v23 (V4 m c) _ (by rw [V4_of, V3_of, V2_of] <;> first | (after_results; rfl) | decide)
      (by rw [V4_of, V3_of, V2_of] <;> first | (after_results; rfl) | decide))

theorem V7_v25 : V7 m c main_v25 = val_main_v25 (F := F) (m ((c : Thread nD τ).loc main_arg0)) (m ((c : Thread nD τ).loc main_arg1)) :=
  st6_v25 (V6 m c) _ _ (by rw [V6_of, V5_of, V4_v18] <;> decide)
    (by rw [V6_of, V5_of, V4_of, V3_of, V2_of, V1_of] <;> first | rfl | decide)

theorem V10_v35 : V10 m c main_v35 = fun i => shapeCast S1232
    (val_main_v25 (F := F) (m ((c : Thread nD τ).loc main_arg0)) (m ((c : Thread nD τ).loc main_arg1))) shapeCasts_S16x77_S1232 i :=
  (st9_v35 (V9 m c)).trans (by rw [V9_of, V8_of, V7_v25] <;> decide)

theorem ids_apply (b : Fin 16) (l : Fin 77) :
    V10 m c main_v35 (ValueIdx.ix1 (⟨77 * b.val + l.val, by omega⟩ : Fin 1232))
      = val_main_v25 (F := F) (m ((c : Thread nD τ).loc main_arg0)) (m ((c : Thread nD τ).loc main_arg1)) (ValueIdx.ix2 b l) := by
  rw [V10_v35]
  exact shapeCast_apply _ shapeCasts_S16x77_S1232 _ (ValueIdx.ix2 b l)
    (by rw [Shape.rowMajor_val_two, Shape.rowMajor_val_one]; show b.val * 77 + l.val = 77 * b.val + l.val; omega)

end Chain

section Range
variable (m : (ℓ : Loc nD τ sig) → Buf (Elt F) ℓ) (c : Dev nD)

theorem ids_lt [Cert.Pre_finite_inputs.Facts]
    (hpre : Cert.Pre_finite_inputs.fn (F := F) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1)
    (k : Fin 1232) : (V10 m c main_v35 (ValueIdx.ix1 k)).toNat < 49408 := by
  have hk : k = (⟨77 * (⟨k.val / 77, by omega⟩ : Fin 16).val + (⟨k.val % 77, by omega⟩ : Fin 77).val, by omega⟩ : Fin 1232) :=
    Fin.ext (by show k.val = 77 * (k.val / 77) + k.val % 77; omega)
  rw [hk, ids_apply m c, Cert.ReferenceIdeal.RefSide.tok_eq]
  exact tok_of_pre _ _ _ _ _ hpre _

end Range

section Shared
variable (m : (ℓ : Loc nD τ sig) → Buf (Elt F) ℓ) (c : Dev nD)

theorem V8_v33 : V8 m c main_v33 = val_main_v33 (F := F) (m ((c : Thread nD τ).loc main_arg1)) (m ((c : Thread nD τ).loc main_arg4)) :=
  st7_v33 (V7 m c) _ _ ((V7_of m c main_v24 (by decide)).trans (V6_v24 m c)) (by rw [V7_of, V6_of, V5_of, V4_of, V3_of, V2_of, V1_of] <;> first | rfl | decide)

theorem V8_v11 : V8 m c main_v11 = val_main_v11 (F := F) (m ((c : Thread nD τ).loc main_arg1)) := by
  rw [V8_of, V7_of, V6_of, V5_of, V4_of, V3_of, V2_of] <;> first | (after_results; rfl) | decide

theorem V10_v11 : V10 m c main_v11 = val_main_v11 (F := F) (m ((c : Thread nD τ).loc main_arg1)) := by
  rw [V10_of, V9_of, V8_v11] <;> decide

theorem V10_v24 : V10 m c main_v24 = val_main_v24 (F := F) (m ((c : Thread nD τ).loc main_arg1)) := by
  rw [V10_of, V9_of, V8_of, V7_of, V6_v24] <;> decide

theorem V10_v34 : V10 m c main_v34
    = val_main_v34 (F := F) (m ((c : Thread nD τ).loc main_arg0)) (m ((c : Thread nD τ).loc main_arg1)) (m ((c : Thread nD τ).loc main_arg4)) :=
  (V10_of m c main_v34 (by decide)).trans <|
    st8_v34 (V8 m c) _ _ _ (V8_v11 m c) (V8_v33 m c) ((V8_of m c main_v25 (by decide)).trans (V7_v25 m c))

end Shared

end Cert.KernelIdeal.Ids

end
-- ==== Proof.KIHyps.lean ====
import proofs.«402305_j66125316489726_3_alg».proof.Proof.KIRun
import proofs.«402305_j66125316489726_3_alg».proof.Proof.KIIds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Gather Cert.KernelIdeal.Ids

theorem hyps_of_pre [Cert.Pre_finite_inputs.Facts] (m : (ℓ : Loc nD τ sig) → Buf (Elt F) ℓ)
    (hpre : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    ∀ c, Hyps0 (VA m) c := fun c i r => ids_lt m c (hpre c) _

end Cert.KernelIdeal.Hand

end
-- ==== Proof.KBCommon.lean ====
import proofs.«402305_j66125316489726_3_alg».proof.Proof.Gen.Kernel.Launch
import proofs.«402305_j66125316489726_3_alg».proof.Proof.Gen.Kernel.Skeleton
import proofs.«402305_j66125316489726_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.HeldBySlice
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev MU : Type := MT nD τ sig Unit (Elt F) ℕ (Pipeline.UD sig nD τ) ℕ

noncomputable abbrev hbM : Memref sig .tc .hbm S49408x768 .f32 := Memref.whole main_arg3

noncomputable abbrev idM : Memref sig .tc .smem S1232 .i32 := Memref.whole main_v35

abbrev HbBuf (c : Dev nD) {sp : Space} {S : Shape} {e : EltTy} (M : Memref sig .tc sp S e) : Type := Buf (Elt F) (M.view.loc (c : Thread nD τ))
abbrev hbAt (c : Dev nD) {sp : Space} {S : Shape} {e : EltTy} (M : Memref sig .tc sp S e) (q : PosShare TreeShare) (f : HbBuf (F := F) c M) : sProp (MU (F := F)) :=
  M.view.loc (c : Thread nD τ) ↦{q} f
abbrev hbPt (c : Dev nD) {sp : Space} {S : Shape} {e : EltTy} (M : Memref sig .tc sp S e) (f : HbBuf (F := F) c M) : sProp (MU (F := F)) :=
  hbAt c M fullShare f

abbrev sems16 (c : Dev nD) : sProp (MU (F := F)) :=
  iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)

end Cert.Kernel.Hand

end
-- ==== Proof.KBGather.lean ====
import proofs.«402305_j66125316489726_3_alg».proof.Proof.KBCommon
import Idealize.ShloMosaic.Lib.ReshapeSlab
import Idealize.ShloMosaic.Lib.ValueIdx

set_option maxRecDepth 16384

noncomputable section

namespace Cert.Kernel.Gather

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

theorem rowInb (r : Fin 16) : ∀ a, (![r.val, 0, 0] : Fin 3 → ℕ) a + S1x1x768.size a ≤ S16x1x768.size a := by
  intro a; fin_cases a
  · show r.val + 1 ≤ 16; omega
  · show 0 + 1 ≤ 1; omega
  · show 0 + 768 ≤ 768; omega

noncomputable abbrev rowR (r : Fin 16) : Rect S16x1x768 := Rect.unit (s := S16x1x768) ![r.val, 0, 0] S1x1x768.size (rowInb r)

noncomputable abbrev rowM (m : Memref sig .tc .vmem S16x1x768 .f32) (r : Fin 16) : Memref sig .tc .vmem S1x768 .f32 :=
  (m.slice (rowR r) (fun _ => rfl)).squeeze S1x768 squeezes_S1x1x768_S1x768

theorem rowM_set (m : Memref sig .tc .vmem S16x1x768 .f32) (r : Fin 16) :
    (rowM m r).view.set = (m.view.slice (rowR r)).set := Memref.set_view_squeeze _ _

theorem rowSub (m : Memref sig .tc .vmem S16x1x768 .f32) (r : Fin 16) : (rowM m r).view.set ⊆ m.view.set := by
  rw [rowM_set]; exact View.set_slice_subset _ _

theorem rowDisj (m : Memref sig .tc .vmem S16x1x768 .f32) (a b : Fin 16) (h : a ≠ b) :
    Disjoint (rowM m a).view.set (rowM m b).view.set := by
  rw [rowM_set, rowM_set]
  refine View.disjoint_slice_of_sep m.view (rowR a) (rowR b) ⟨0, by decide⟩ rfl rfl ?_
  show a.val + 1 ≤ b.val ∨ b.val + 1 ≤ a.val
  have : a.val ≠ b.val := fun e => h (Fin.ext e)
  omega

theorem joinStep {ℓ : Loc nD τ sig} {I S : Finset (Idx ℓ)} {q : PosShare TreeShare} {f g : Buf (Elt F) ℓ}
    (hI : I ⊆ S) (hfg : ∀ i ∈ I, f i = g i) :
    iprop((ℓ ↦[I]{q} f) ∗ ℓ ↦[S \ I]{q} g) ⊢ (ℓ ↦[S]{q} g : sProp 𝕄) := by
  rw [pointsTo_congr hfg]; exact (pointsTo_split_subset hI).2

theorem rowM_emb (m : Memref sig .tc .vmem S16x1x768 .f32) (r : Fin 16) (y : S1x768.Idx) :
    (rowM m r).view.emb y = m.view.emb (ix3 r (0 : Fin 1) (y 1)) := by
  show m.view.emb ((rowR r).emb (Shape.reshapeEquiv _ y)) = _
  congr 1
  rw [Shape.reshapeEquiv_cons_one]
  funext a
  apply Fin.ext
  rw [Rect.emb_apply]
  match a with
  | ⟨0, _⟩ => show r.val + 1 * 0 = r.val; omega
  | ⟨1, _⟩ =>
    have h : (y 0).val < 1 := (y 0).isLt
    show 0 + 1 * (y 0).val = 0; omega
  | ⟨2, _⟩ => show 0 + 1 * (y 1).val = (y 1).val; omega

theorem readRow (m : Memref sig .tc .vmem S16x1x768 .f32) (r : Fin 16) (f : m.view.ty.Contents (Elt F))
    (p : S1x768.Idx → Elt F .f32) (d : Fin 768) :
    m.view.read (Elt F) ((rowM m r).view.write (Elt F) f p Finset.univ) (ix3 r (0 : Fin 1) d) = p (ix2 (0 : Fin 1) d) := by
  have e := rowM_emb m r (ix2 (0 : Fin 1) d)
  rw [View.read_apply, show m.view.emb (ix3 r (0 : Fin 1) d) = (rowM m r).view.emb (ix2 (0 : Fin 1) d) from e.symm,
    View.write_emb_of_mem _ _ (Finset.mem_univ _), cast_cast, cast_eq]

theorem readOther (m : Memref sig .tc .vmem S16x1x768 .f32) (k r : Fin 16) (h : k ≠ r) (f : m.view.ty.Contents (Elt F))
    (p : S1x768.Idx → Elt F .f32) (d : Fin 768) :
    m.view.read (Elt F) ((rowM m k).view.write (Elt F) f p Finset.univ) (ix3 r (0 : Fin 1) d)
      = m.view.read (Elt F) f (ix3 r (0 : Fin 1) d) := by
  refine View.read_congr_at _ (View.write_of_not_mem _ _ _ ?_)
  rw [View.setOn_univ]
  intro hk
  have hr : m.view.emb (ix3 r (0 : Fin 1) d) ∈ (rowM m r).view.set := by
    rw [← rowM_emb m r (ix2 (0 : Fin 1) d)]; exact View.emb_mem_set _ _
  exact Finset.disjoint_left.mp (rowDisj m k r h) hk hr

-- The block's contents after the listed rows were written through, the last written first.
noncomputable def writeRows (m : Memref sig .tc .vmem S16x1x768 .f32) (f : m.view.ty.Contents (Elt F)) :
    List (Fin 16 × (S1x768.Idx → Elt F .f32)) → m.view.ty.Contents (Elt F)
  | [] => f
  | p :: ps => (rowM m p.1).view.write (Elt F) (writeRows m f ps) p.2 Finset.univ

-- Writes through other rows leave a row's elements as they were.
theorem agree_append (m : Memref sig .tc .vmem S16x1x768 .f32) (f : m.view.ty.Contents (Elt F)) (k : Fin 16)
    (ps : List (Fin 16 × (S1x768.Idx → Elt F .f32))) :
    ∀ pre : List (Fin 16 × (S1x768.Idx → Elt F .f32)), (∀ p ∈ pre, p.1 ≠ k) →
      ∀ i ∈ (rowM m k).view.set, writeRows m f ps i = writeRows m f (pre ++ ps) i
  | [], _, _, _ => rfl
  | p :: pre, h, i, hi => by
    rw [List.cons_append, writeRows, View.write_of_not_mem _ _ _ (by
      rw [View.setOn_univ]; exact Finset.disjoint_left.mp (rowDisj m k p.1 (h p List.mem_cons_self).symm) hi)]
    exact agree_append m f k ps pre (fun q hq => h q (List.mem_cons_of_mem _ hq)) i hi

theorem read_writeRows (m : Memref sig .tc .vmem S16x1x768 .f32) (f : m.view.ty.Contents (Elt F))
    (G : Vec F S16x1x768 .f32) (r : Fin 16) (d : Fin 768) :
    ∀ ps : List (Fin 16 × (S1x768.Idx → Elt F .f32)), (∀ p ∈ ps, G (ix3 p.1 (0 : Fin 1) d) = p.2 (ix2 (0 : Fin 1) d)) →
      r ∈ ps.map Prod.fst → m.view.read (Elt F) (writeRows m f ps) (ix3 r (0 : Fin 1) d) = G (ix3 r (0 : Fin 1) d)
  | [], _, hr => by simp at hr
  | p :: ps, h, hr => by
    rw [writeRows]
    by_cases e : p.1 = r
    · subst e; exact (readRow m p.1 _ p.2 d).trans (h p List.mem_cons_self).symm
    · exact (readOther m p.1 r e _ p.2 d).trans (read_writeRows m f G r d ps (fun q hq => h q (List.mem_cons_of_mem _ hq))
        ((List.mem_cons.mp hr).resolve_left (Ne.symm e)))

-- When every row was written, the block reads as the value whose rows are the payloads.
theorem readBack (m : Memref sig .tc .vmem S16x1x768 .f32) (f : m.view.ty.Contents (Elt F))
    (ps : List (Fin 16 × (S1x768.Idx → Elt F .f32))) (G : Vec F S16x1x768 .f32)
    (hrows : ∀ r : Fin 16, r ∈ ps.map Prod.fst)
    (h : ps.Forall fun p => ∀ d : Fin 768, G (ix3 p.1 (0 : Fin 1) d) = p.2 (ix2 (0 : Fin 1) d)) :
    m.view.read (Elt F) (writeRows m f ps) = G := by
  funext j
  have hz : j 1 = (0 : Fin 1) := Fin.ext (by have h : (j 1).val < 1 := (j 1).isLt; show (j 1).val = 0; omega)
  rw [eq_ix3 j, hz]
  exact read_writeRows m f G (j 0) (j 2) ps (fun p hp => List.forall_iff_forall_mem.mp h p hp (j 2)) (hrows (j 0))

-- The block's elements with the listed rows carved out.
noncomputable def restSet (m : Memref sig .tc .vmem S16x1x768 .f32) (c : Dev nD) (S : Finset (Idx (m.view.loc (c : Thread nD τ)))) :
    List (Fin 16 × (S1x768.Idx → Elt F .f32)) → Finset (Idx (m.view.loc (c : Thread nD τ)))
  | [] => S
  | p :: ps => restSet m c S ps \ ((rowM m p.1).view.set : Finset (Idx (m.view.loc (c : Thread nD τ))))

theorem sub_restSet (m : Memref sig .tc .vmem S16x1x768 .f32) (c : Dev nD) (S : Finset (Idx (m.view.loc (c : Thread nD τ))))
    (k : Fin 16) (hk : (rowM m k).view.set ⊆ S) :
    ∀ ps : List (Fin 16 × (S1x768.Idx → Elt F .f32)), (∀ p ∈ ps, p.1 ≠ k) → (rowM m k).view.set ⊆ restSet m c S ps
  | [], _ => hk
  | p :: ps, h => Finset.subset_sdiff.mpr ⟨sub_restSet m c S k hk ps (fun q hq => h q (List.mem_cons_of_mem _ hq)),
      rowDisj m k p.1 (h p List.mem_cons_self).symm⟩

-- Each listed row held on its own, at the contents its write left.
noncomputable def landed (m : Memref sig .tc .vmem S16x1x768 .f32) (c : Dev nD) (q : PosShare TreeShare) (f : m.view.ty.Contents (Elt F)) :
    List (Fin 16 × (S1x768.Idx → Elt F .f32)) → sProp 𝕄
  | [] => iprop(emp)
  | p :: ps => iprop(((m.view.loc (c : Thread nD τ)) ↦[((rowM m p.1).view.set : Finset (Idx (m.view.loc (c : Thread nD τ))))]{q} writeRows m f (p :: ps))
      ∗ landed m c q f ps)

-- Rows carved out of `S` and written one after another, with what is left of `S` at the final contents, are `S` at those contents.
theorem landedJoin (m : Memref sig .tc .vmem S16x1x768 .f32) (c : Dev nD) (q : PosShare TreeShare) (f : m.view.ty.Contents (Elt F))
    (S : Finset (Idx (m.view.loc (c : Thread nD τ)))) :
    ∀ (ps pre : List (Fin 16 × (S1x768.Idx → Elt F .f32))), ((pre ++ ps).map Prod.fst).Nodup →
      (∀ p ∈ ps, (rowM m p.1).view.set ⊆ S) →
      iprop(landed m c q f ps ∗ (m.view.loc (c : Thread nD τ)) ↦[restSet m c S ps]{q} writeRows m f (pre ++ ps))
        ⊢ ((m.view.loc (c : Thread nD τ)) ↦[S]{q} writeRows m f (pre ++ ps) : sProp 𝕄)
  | [], pre, _, _ => by rw [landed, restSet]; iintro ⟨_, H⟩; iexact H
  | p :: ps, pre, hnd, hsub => by
    have hnd' : ((pre ++ [p] ++ ps).map Prod.fst).Nodup := by rwa [← List.append_cons]
    have hp : ∀ q ∈ pre ++ ps, q.1 ≠ p.1 := by
      intro q hq e
      rw [List.map_append, List.map_cons, List.nodup_middle, ← List.map_append] at hnd
      exact (List.nodup_cons.mp hnd).1 (e ▸ List.mem_map_of_mem hq)
    rw [landed, restSet]
    iintro ⟨⟨Hp, Hps⟩, HR⟩
    rw [List.append_cons]
    iapply (landedJoin m c q f S ps (pre ++ [p]) hnd' (fun q hq => hsub q (List.mem_cons_of_mem _ hq)))
    isplitl [Hps]; · iexact Hps
    rw [← List.append_cons]
    iapply (joinStep (sub_restSet m c S p.1 (hsub p List.mem_cons_self) ps (fun q hq => hp q (List.mem_append_right _ hq)))
      (agree_append m f p.1 (p :: ps) pre (fun q hq => hp q (List.mem_append_left _ hq))))
    isplitl [Hp]; · iexact Hp
    iexact HR

theorem coord_lt (i : grid0.Coords) : (i 0).val < 77 := (i 0).isLt

theorem idPos_lt (i : grid0.Coords) (r : Fin 16) : 16 * (i 0).val + r.val < 1232 := by
  have := coord_lt i; omega

noncomputable abbrev idWord (i : grid0.Coords) (x0 : Vec F S1232 .i32) (r : Fin 16) : BitVec 32 :=
  x0 (ix1 (⟨16 * (i 0).val + r.val, idPos_lt i r⟩ : Fin 1232))

noncomputable def rowOf (i : grid0.Coords) (x0 : Vec F S1232 .i32) (r : Fin 16) : Fin 49408 :=
  ⟨(idWord i x0 r).toNat % 49408, Nat.mod_lt _ (by decide)⟩

noncomputable def gatherOut (c : Dev nD) (i : grid0.Coords) (x0 : Vec F S1232 .i32) (fh0 : HbBuf (F := F) c hbM) : Vec F S16x1x768 .f32 :=
  fun j => hbM.view.read (Elt F) fh0 (ix2 (rowOf i x0 (j 0)) (j 2))

theorem gatherOut_apply (c : Dev nD) (i : grid0.Coords) (x0 : Vec F S1232 .i32) (fh0 : HbBuf (F := F) c hbM)
    (r : Fin 16) (d : Fin 768) (h : (idWord i x0 r).toNat < 49408) :
    gatherOut c i x0 fh0 (ix3 r (0 : Fin 1) d)
      = hbM.view.read (Elt F) fh0 (ix2 (⟨(idWord i x0 r).toNat, h⟩ : Fin 49408) d) := by
  show hbM.view.read (Elt F) fh0 (ix2 (rowOf i x0 r) d) = _
  have e : rowOf i x0 r = ⟨(idWord i x0 r).toNat, h⟩ := Fin.ext (Nat.mod_eq_of_lt h)
  rw [e]

theorem rowInbHb (w : BitVec 32) (h : w.toNat < 49408) :
    ∀ a, (![w.toNat, 0] : Fin 2 → ℕ) a + S1x768.size a ≤ S49408x768.size a := by
  intro a
  match a with
  | ⟨0, _⟩ => show w.toNat + 1 ≤ 49408; omega
  | ⟨1, _⟩ => show 0 + 768 ≤ 768; omega

theorem slicePayload (c : Dev nD) (fh0 : HbBuf (F := F) c hbM) (w : BitVec 32)
    (inb : ∀ a, (![w.toNat, 0] : Fin 2 → ℕ) a + S1x768.size a ≤ S49408x768.size a) (h : w.toNat < 49408) (d : Fin 768) :
    ReadAs.same.apply (((Memref.whole main_arg3).slice (Rect.unit (s := S49408x768) ![w.toNat, 0] S1x768.size inb) (fun _ => rfl)).view.read (Elt F) fh0) (ix2 (0 : Fin 1) d)
      = hbM.view.read (Elt F) fh0 (ix2 (⟨w.toNat, h⟩ : Fin 49408) d) := by
  have e : (Rect.unit (s := S49408x768) ![w.toNat, 0] S1x768.size inb).emb (ix2 (0 : Fin 1) d) = ix2 (⟨w.toNat, h⟩ : Fin 49408) d := by
    funext a; apply Fin.ext; rw [Rect.emb_apply]
    match a with
    | ⟨0, _⟩ => show w.toNat + 1 * 0 = w.toNat; omega
    | ⟨1, _⟩ => show 0 + 1 * d.val = d.val; omega
  show hbM.view.read (Elt F) fh0 ((Rect.unit (s := S49408x768) ![w.toNat, 0] S1x768.size inb).emb (ix2 (0 : Fin 1) d)) = _
  rw [e]

theorem gatherOut_eq_payload (c : Dev nD) (i : grid0.Coords) (x0 : Vec F S1232 .i32) (fh0 : HbBuf (F := F) c hbM)
    (r : Fin 16) (w : BitVec 32) (hw : w = idWord i x0 r)
    (inb : ∀ a, (![w.toNat, 0] : Fin 2 → ℕ) a + S1x768.size a ≤ S49408x768.size a) (h : w.toNat < 49408) (d : Fin 768) :
    gatherOut c i x0 fh0 (ix3 r (0 : Fin 1) d)
      = ReadAs.same.apply (((Memref.whole main_arg3).slice (Rect.unit (s := S49408x768) ![w.toNat, 0] S1x768.size inb) (fun _ => rfl)).view.read (Elt F) fh0) (ix2 (0 : Fin 1) d) := by
  subst hw
  rw [slicePayload c fh0 _ inb h d, gatherOut_apply c i x0 fh0 r d h]

theorem idWord_eq (i : grid0.Coords) (arg1 : Memref sig .tc .smem S1232 .i32) (harg1 : arg1.IsWhole) (x0 : Vec F S1232 .i32)
    (off : Fin 1 → ℕ) (inb : ∀ a, off a + S1.size a ≤ S1232.size a) (hn : 0 < S1.numel) (r : Fin 16)
    (hoff : off = ![16 * (i 0).val + r.val]) :
    arg1.view.readAt (Elt F) (Rect.unit (s := S1232) off S1.size inb).toLoadRect (harg1.unread x0) (Shape.Idx.first hn)
      = idWord i x0 r := by
  subst hoff
  rw [View.readAt_apply, Memref.IsWhole.read_unread]
  congr 1
  funext a
  apply Fin.ext
  match a with
  | ⟨0, _⟩ => show 16 * (i 0).val + r.val + 1 * 0 = 16 * (i 0).val + r.val; omega

theorem lt_of_inb (w : BitVec 32) (h : ∀ a, (![w.toNat, 0] : Fin 2 → ℕ) a + S1x768.size a ≤ S49408x768.size a) :
    w.toNat < 49408 := by
  have h0 : w.toNat + 1 ≤ 49408 := h ⟨0, Nat.zero_lt_two⟩
  omega

theorem rows16 (p15 p14 p13 p12 p11 p10 p9 p8 p7 p6 p5 p4 p3 p2 p1 p0 : S1x768.Idx → Elt F .f32) :
    (∀ r : Fin 16, r ∈ List.map Prod.fst [(15, p15), (14, p14), (13, p13), (12, p12), (11, p11), (10, p10), (9, p9), (8, p8), (7, p7), (6, p6), (5, p5), (4, p4), (3, p3), (2, p2), (1, p1), (0, p0)])
      ∧ (List.map Prod.fst ([((15 : Fin 16), p15)] ++ [(14, p14), (13, p13), (12, p12), (11, p11), (10, p10), (9, p9), (8, p8), (7, p7), (6, p6), (5, p5), (4, p4), (3, p3), (2, p2), (1, p1), (0, p0)])).Nodup := by
  simp only [List.map_cons, List.map_nil, List.cons_append, List.nil_append]
  decide

theorem chk_of_lt (w : BitVec 32) (h : w.toNat < 49408) :
    (∀ a, (![w.toNat, 0] : Fin 2 → ℕ) a + S1x768.size a ≤ S49408x768.size a)
      ∧ ∀ a, (![w.toNat, 0] : Fin 2 → ℕ) a + S1x768.size a ≤ S49408x768.size a := ⟨rowInbHb w h, rowInbHb w h⟩

theorem word_lt (i : grid0.Coords) (arg1 : Memref sig .tc .smem S1232 .i32) (harg1 : arg1.IsWhole) (x0 : Vec F S1232 .i32)
    (off : Fin 1 → ℕ) (inb : ∀ a, off a + S1.size a ≤ S1232.size a) (r : Fin 16) (hoff : off = ![16 * (i 0).val + r.val])
    (hlt : ∀ r : Fin 16, (idWord i x0 r).toNat < 49408) :
    (arg1.view.readAt (Elt F) (Rect.unit (s := S1232) off S1.size inb).toLoadRect (harg1.unread x0)
      (Shape.Idx.first (numel1_S1.symm ▸ Nat.one_pos))).toNat < 49408 := by
  rw [idWord_eq i arg1 harg1 x0 off inb _ r hoff]; exact hlt r

abbrev toks18 (c : Dev nD) (fh0 : HbBuf (F := F) c hbM) : sProp (MU (F := F)) :=
  iprop(hbAt c hbM (Transfers.shareDrop fullShare 18) fh0 ∗ hbAt c hbM (Transfers.shareTok fullShare 18 0) fh0 ∗ hbAt c hbM (Transfers.shareTok fullShare 18 1) fh0 ∗ hbAt c hbM (Transfers.shareTok fullShare 18 2) fh0 ∗ hbAt c hbM (Transfers.shareTok fullShare 18 3) fh0 ∗ hbAt c hbM (Transfers.shareTok fullShare 18 4) fh0 ∗ hbAt c hbM (Transfers.shareTok fullShare 18 5) fh0 ∗ hbAt c hbM (Transfers.shareTok fullShare 18 6) fh0 ∗ hbAt c hbM (Transfers.shareTok fullShare 18 7) fh0 ∗ hbAt c hbM (Transfers.shareTok fullShare 18 8) fh0 ∗ hbAt c hbM (Transfers.shareTok fullShare 18 9) fh0 ∗ hbAt c hbM (Transfers.shareTok fullShare 18 10) fh0 ∗ hbAt c hbM (Transfers.shareTok fullShare 18 11) fh0 ∗ hbAt c hbM (Transfers.shareTok fullShare 18 12) fh0 ∗ hbAt c hbM (Transfers.shareTok fullShare 18 13) fh0 ∗ hbAt c hbM (Transfers.shareTok fullShare 18 14) fh0 ∗ hbAt c hbM (Transfers.shareTok fullShare 18 15) fh0 ∗ hbAt c hbM (Transfers.shareTok fullShare 18 16) fh0 ∗ hbAt c hbM (Transfers.shareTok fullShare 18 17) fh0)

theorem toks18_eq (c : Dev nD) (fh0 : HbBuf (F := F) c hbM) :
    iprop(hbAt c hbM (Transfers.shareDrop fullShare 18) fh0 ∗ bigSep Finset.univ fun j : Fin 18 => hbAt c hbM (Transfers.shareTok fullShare 18 j) fh0)
      = toks18 c fh0 := by
  rw [bigSep_univ_eq_bigSepL [(0 : Fin 18), 1, 2, 3, 4, 5, 6, 7, 8, 9, 10, 11, 12, 13, 14, 15, 16, 17] (by decide) (by decide)]; rfl

set_option sl_exec.rejoinHeartbeats 100 in
set_option sl_exec.dmaWindow true in
set_option sl_exec.dmaWindowSet true in
set_option maxHeartbeats 8000000 in
-- Sixteen disjoint rows, each written once with the table's row at its id: the block ends at `gatherOut`.
theorem gatherRunG (c : Dev nD) (i : grid0.Coords) (arg1 : Memref sig .tc .smem S1232 .i32) (harg1 : arg1.IsWhole)
    (arg3 : Memref sig .tc .vmem S16x1x768 .f32) (harg3 : arg3.IsWhole)
    (x0 : Vec F S1232 .i32) (fh0 : HbBuf (F := F) c hbM) (hlt : ∀ r : Fin 16, (idWord i x0 r).toNat < 49408)
    (W : Waits sig Unit) (K : PUnit → sProp (MU (F := F))) :
    iprop(owns (c : Thread nD τ) arg1 fullShare x0 ∗ (∃ d, owns (c : Thread nD τ) arg3 fullShare d) ∗ sems16 c ∗ hbPt c hbM fh0 ∗ owes (c : Thread nD τ) 0 W
        ∗ (iprop(owns (c : Thread nD τ) arg1 fullShare x0 ∗ owns (c : Thread nD τ) arg3 fullShare (gatherOut c i x0 fh0) ∗ sems16 c ∗ hbPt c hbM fh0 ∗ (∃ W', owes (c : Thread nD τ) 0 W')) -∗ K ⟨⟩))
      ⊢ wp frame (wpE (defs₀ (F := F)) Variants.none c none) Set.univ (cc0__gather_kernel i arg1 harg1 hbM (Memref.isWhole_whole _) arg3 harg3 cc0_scratch0) K := by
  have k0_hw1 : k0_chk1 _ := chk_of_lt _ (word_lt i arg1 harg1 x0 _ (k0_off1_inb i) 0 (k0_off1_eq i) hlt)
  have k0_hw2 : k0_chk2 _ := chk_of_lt _ (word_lt i arg1 harg1 x0 _ (k0_off3_inb i) 1 (k0_off3_eq i) hlt)
  have k0_hw3 : k0_chk3 _ := chk_of_lt _ (word_lt i arg1 harg1 x0 _ (k0_off5_inb i) 2 (k0_off5_eq i) hlt)
  have k0_hw4 : k0_chk4 _ := chk_of_lt _ (word_lt i arg1 harg1 x0 _ (k0_off7_inb i) 3 (k0_off7_eq i) hlt)
  have k0_hw5 : k0_chk5 _ := chk_of_lt _ (word_lt i arg1 harg1 x0 _ (k0_off9_inb i) 4 (k0_off9_eq i) hlt)
  have k0_hw6 : k0_chk6 _ := chk_of_lt _ (word_lt i arg1 harg1 x0 _ (k0_off11_inb i) 5 (k0_off11_eq i) hlt)
  have k0_hw7 : k0_chk7 _ := chk_of_lt _ (word_lt i arg1 harg1 x0 _ (k0_off13_inb i) 6 (k0_off13_eq i) hlt)
  have k0_hw8 : k0_chk8 _ := chk_of_lt _ (word_lt i arg1 harg1 x0 _ (k0_off15_inb i) 7 (k0_off15_eq i) hlt)
  have k0_hw9 : k0_chk9 _ := chk_of_lt _ (word_lt i arg1 harg1 x0 _ (k0_off17_inb i) 8 (k0_off17_eq i) hlt)
  have k0_hw10 : k0_chk10 _ := chk_of_lt _ (word_lt i arg1 harg1 x0 _ (k0_off19_inb i) 9 (k0_off19_eq i) hlt)
  have k0_hw11 : k0_chk11 _ := chk_of_lt _ (word_lt i arg1 harg1 x0 _ (k0_off21_inb i) 10 (k0_off21_eq i) hlt)
  have k0_hw12 : k0_chk12 _ := chk_of_lt _ (word_lt i arg1 harg1 x0 _ (k0_off23_inb i) 11 (k0_off23_eq i) hlt)
  have k0_hw13 : k0_chk13 _ := chk_of_lt _ (word_lt i arg1 harg1 x0 _ (k0_off25_inb i) 12 (k0_off25_eq i) hlt)
  have k0_hw14 : k0_chk14 _ := chk_of_lt _ (word_lt i arg1 harg1 x0 _ (k0_off27_inb i) 13 (k0_off27_eq i) hlt)
  have k0_hw15 : k0_chk15 _ := chk_of_lt _ (word_lt i arg1 harg1 x0 _ (k0_off29_inb i) 14 (k0_off29_eq i) hlt)
  have k0_hw16 : k0_chk16 _ := rowInbHb _ (word_lt i arg1 harg1 x0 _ (k0_off31_inb i) 15 (k0_off31_eq i) hlt)
  simp only [cc0__gather_kernel_eq_skeleton]; unfold cc0__gather_kernel_skel
  unfold owns sems16
  iintro ⟨⟨%f0, %hf0, H0⟩, ⟨%d1, %f1, -, H1⟩, ⟨Hq0, Hq1, Hq2, Hq3, Hq4, Hq5, Hq6, Hq7, Hq8, Hq9, Hq10, Hq11, Hq12, Hq13, Hq14, Hq15⟩, Hh0, HW, Hk⟩
  obtain rfl := harg1.eq_unread hf0
  ihave HC' := ((Transfers.pointsTo_toks_split (Ix := Unit) (Name := ℕ) (U := Pipeline.UD sig nD τ) (Lvl := ℕ) fullShare 18).trans
    (Entails.of_eq (toks18_eq c fh0))) $$ Hh0
  icases HC' with ⟨HCr, HC0, HC1, HC2, HC3, HC4, HC5, HC6, HC7, HC8, HC9, HC10, HC11, HC12, HC13, HC14, HC15, HC16, HC17⟩
  sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16)
  ihave H1 := (landedJoin arg3 c _ f1 _ [(14,_), (13,_), (12,_), (11,_), (10,_), (9,_), (8,_), (7,_), (6,_), (5,_), (4,_), (3,_), (2,_), (1,_), (0,_)] [(15,_)] ?_ (fun p _ => rowSub arg3 p.1)) $$ [H1_2 H1_3 H1_4 H1_5 H1_6 H1_7 H1_8 H1_9 H1_10 H1_11 H1_12 H1_13 H1_14 H1_15 H1_16 H1]
  pick_goal 2
  · dsimp only [landed]
    isplitr [H1]
    · isplitl [H1_16]; · iexact H1_16
      isplitl [H1_15]; · iexact H1_15
      isplitl [H1_14]; · iexact H1_14
      isplitl [H1_13]; · iexact H1_13
      isplitl [H1_12]; · iexact H1_12
      isplitl [H1_11]; · iexact H1_11
      isplitl [H1_10]; · iexact H1_10
      isplitl [H1_9]; · iexact H1_9
      isplitl [H1_8]; · iexact H1_8
      isplitl [H1_7]; · iexact H1_7
      isplitl [H1_6]; · iexact H1_6
      isplitl [H1_5]; · iexact H1_5
      isplitl [H1_4]; · iexact H1_4
      isplitl [H1_3]; · iexact H1_3
      isplitl [H1_2]; · iexact H1_2
      iempintro
    · iexact H1
  · exact (rows16 _ _ _ _ _ _ _ _ _ _ _ _ _ _ _ _).2
  sl_step
  iapply Hk
  isplitl [H0]
  · iexists _; isplitr; · ipureintro; exact harg1.read_unread _
    iexact H0
  isplitl [H1]
  · iexists _; isplitr; swap; · iexact H1
    ipureintro
    refine readBack arg3 f1 [(15,_), (14,_), (13,_), (12,_), (11,_), (10,_), (9,_), (8,_), (7,_), (6,_), (5,_), (4,_), (3,_), (2,_), (1,_), (0,_)] (gatherOut c i x0 fh0) ?_ ⟨?_, ?_, ?_, ?_, ?_, ?_, ?_, ?_, ?_, ?_, ?_, ?_, ?_, ?_, ?_, ?_⟩
    · exact (rows16 _ _ _ _ _ _ _ _ _ _ _ _ _ _ _ _).1
    · intro d; sl_unfold_run_names; exact gatherOut_eq_payload c i x0 fh0 15 _ (idWord_eq i arg1 harg1 x0 _ (k0_off31_inb i) _ 15 (k0_off31_eq i)) (k0_off32_inb _ k0_hw16) (lt_of_inb _ k0_hw16) d
    · intro d; sl_unfold_run_names; exact gatherOut_eq_payload c i x0 fh0 14 _ (idWord_eq i arg1 harg1 x0 _ (k0_off29_inb i) _ 14 (k0_off29_eq i)) (k0_off30_inb _ k0_hw15) (lt_of_inb _ k0_hw15.1) d
    · intro d; sl_unfold_run_names; exact gatherOut_eq_payload c i x0 fh0 13 _ (idWord_eq i arg1 harg1 x0 _ (k0_off27_inb i) _ 13 (k0_off27_eq i)) (k0_off28_inb _ k0_hw14) (lt_of_inb _ k0_hw14.1) d
    · intro d; sl_unfold_run_names; exact gatherOut_eq_payload c i x0 fh0 12 _ (idWord_eq i arg1 harg1 x0 _ (k0_off25_inb i) _ 12 (k0_off25_eq i)) (k0_off26_inb _ k0_hw13) (lt_of_inb _ k0_hw13.1) d
    · intro d; sl_unfold_run_names; exact gatherOut_eq_payload c i x0 fh0 11 _ (idWord_eq i arg1 harg1 x0 _ (k0_off23_inb i) _ 11 (k0_off23_eq i)) (k0_off24_inb _ k0_hw12) (lt_of_inb _ k0_hw12.1) d
    · intro d; sl_unfold_run_names; exact gatherOut_eq_payload c i x0 fh0 10 _ (idWord_eq i arg1 harg1 x0 _ (k0_off21_inb i) _ 10 (k0_off21_eq i)) (k0_off22_inb _ k0_hw11) (lt_of_inb _ k0_hw11.1) d
    · intro d; sl_unfold_run_names; exact gatherOut_eq_payload c i x0 fh0 9 _ (idWord_eq i arg1 harg1 x0 _ (k0_off19_inb i) _ 9 (k0_off19_eq i)) (k0_off20_inb _ k0_hw10) (lt_of_inb _ k0_hw10.1) d
    · intro d; sl_unfold_run_names; exact gatherOut_eq_payload c i x0 fh0 8 _ (idWord_eq i arg1 harg1 x0 _ (k0_off17_inb i) _ 8 (k0_off17_eq i)) (k0_off18_inb _ k0_hw9) (lt_of_inb _ k0_hw9.1) d
    · intro d; sl_unfold_run_names; exact gatherOut_eq_payload c i x0 fh0 7 _ (idWord_eq i arg1 harg1 x0 _ (k0_off15_inb i) _ 7 (k0_off15_eq i)) (k0_off16_inb _ k0_hw8) (lt_of_inb _ k0_hw8.1) d
    · intro d; sl_unfold_run_names; exact gatherOut_eq_payload c i x0 fh0 6 _ (idWord_eq i arg1 harg1 x0 _ (k0_off13_inb i) _ 6 (k0_off13_eq i)) (k0_off14_inb _ k0_hw7) (lt_of_inb _ k0_hw7.1) d
    · intro d; sl_unfold_run_names; exact gatherOut_eq_payload c i x0 fh0 5 _ (idWord_eq i arg1 harg1 x0 _ (k0_off11_inb i) _ 5 (k0_off11_eq i)) (k0_off12_inb _ k0_hw6) (lt_of_inb _ k0_hw6.1) d
    · intro d; sl_unfold_run_names; exact gatherOut_eq_payload c i x0 fh0 4 _ (idWord_eq i arg1 harg1 x0 _ (k0_off9_inb i) _ 4 (k0_off9_eq i)) (k0_off10_inb _ k0_hw5) (lt_of_inb _ k0_hw5.1) d
    · intro d; sl_unfold_run_names; exact gatherOut_eq_payload c i x0 fh0 3 _ (idWord_eq i arg1 harg1 x0 _ (k0_off7_inb i) _ 3 (k0_off7_eq i)) (k0_off8_inb _ k0_hw4) (lt_of_inb _ k0_hw4.1) d
    · intro d; sl_unfold_run_names; exact gatherOut_eq_payload c i x0 fh0 2 _ (idWord_eq i arg1 harg1 x0 _ (k0_off5_inb i) _ 2 (k0_off5_eq i)) (k0_off6_inb _ k0_hw3) (lt_of_inb _ k0_hw3.1) d
    · intro d; sl_unfold_run_names; exact gatherOut_eq_payload c i x0 fh0 1 _ (idWord_eq i arg1 harg1 x0 _ (k0_off3_inb i) _ 1 (k0_off3_eq i)) (k0_off4_inb _ k0_hw2) (lt_of_inb _ k0_hw2.1) d
    · intro d; sl_unfold_run_names; exact gatherOut_eq_payload c i x0 fh0 0 _ (idWord_eq i arg1 harg1 x0 _ (k0_off1_inb i) _ 0 (k0_off1_eq i)) (k0_off2_inb _ k0_hw1) (lt_of_inb _ k0_hw1.1) d
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [HCr HC0 HC1 HC2 HC3 HC4 HC5 HC6 HC7 HC8 HC9 HC10 HC11 HC12 HC13 HC14 HC15 HC16 HC17]
  · iapply ((Entails.of_eq (toks18_eq c fh0).symm).trans
      (Transfers.pointsTo_toks_join (Ix := Unit) (Name := ℕ) (U := Pipeline.UD sig nD τ) (Lvl := ℕ) fullShare 18))
    isplitl [HCr]; · iexact HCr
    isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    isplitl [HC7]; · iexact HC7
    isplitl [HC8]; · iexact HC8
    isplitl [HC9]; · iexact HC9
    isplitl [HC10]; · iexact HC10
    isplitl [HC11]; · iexact HC11
    isplitl [HC12]; · iexact HC12
    isplitl [HC13]; · iexact HC13
    isplitl [HC14]; · iexact HC14
    isplitl [HC15]; · iexact HC15
    isplitl [HC16]; · iexact HC16
    iexact HC17
  iexists _; iexact HW

end Cert.Kernel.Gather

end
-- ==== Proof.KBCombine.lean ====
import proofs.«402305_j66125316489726_3_alg».proof.Proof.Gen.Kernel.Loops
import proofs.«402305_j66125316489726_3_alg».proof.Proof.Gen.Kernel.Skeleton
import Idealize.ShloMosaic.Lib.Pipeline.Frame
import Idealize.ShloMosaic.Lib.Pipeline.Value
import Idealize.ShloMosaic.Lib.Ring
import Idealize.ShloMosaic.Lib.Writes
import Idealize.ShloMosaic.Lib.WholeRead
import Idealize.ShloMosaic.Lib.ValueIdx
import Idealize.ShloMosaic.Lib.Exec
import Idealize.ShloMosaic.Lib.Tactic

set_option maxRecDepth 16384
set_option maxHeartbeats 4000000

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx

variable (𝒱 : Variants) (c : Dev nD) (bd : Option 𝒱.V) (E : Set ℕ) (i : grid1.Coords)
  (arg2 : Memref sig .tc .vmem S1x77x768 .f32) (harg2 : arg2.IsWhole) (arg3 : Memref sig .tc .vmem S39x16x768 .f32) (harg3 : arg3.IsWhole)
  (arg4 : Memref sig .tc .vmem S1x77x16 .f32) (harg4 : arg4.IsWhole) (arg5 : Memref sig .tc .vmem S1x1x77 .f32) (harg5 : arg5.IsWhole)
  (arg6 : Memref sig .tc .vmem S1x39x77x768 .f32) (harg6 : arg6.IsWhole)
  (v0 : Vec F S1x77x768 .f32) (v2 : Vec F S1x77x16 .f32) (v4 : Vec F S1x1x77 .f32)
  (X_arg3 : BufTy.Contents (Elt F) arg3.view.ty) (x : Vec F S39x16x768 .f32)

abbrev TripC (f_arg6 : BufTy.Contents (Elt F) arg6.view.ty) : sProp 𝕄 :=
  iprop((arg3.view.loc (c : Thread nD τ) ↦[arg3.view.set]{fullShare} X_arg3) ∗ (arg6.view.loc (c : Thread nD τ) ↦[arg6.view.set]{fullShare} f_arg6))

noncomputable def tripLC (k : Fin k1_t1_loop.trips) : List (View.Piece (Elt F) S1x39x77x768 .f32) :=
  [⟨Rect.unit (s := S1x39x77x768) (k1_off2 k) S1x1x77x768.size (k1_off2_inb k),
    k1_pay1 v0 v2 v4 (View.readAt (Elt F) arg3.view (Rect.unit (s := S39x16x768) (k1_off1 k) S1x16x768.size (k1_off1_inb k)).toLoadRect X_arg3)⟩]

theorem tripC_run (k : Fin k1_t1_loop.trips) (f_arg6 : BufTy.Contents (Elt F) arg6.view.ty) :
    TripC (F := F) c arg3 arg6 X_arg3 f_arg6
      ⊢ wp frame (wpE (defs₀ (F := F)) 𝒱 (c : Thread nD τ) bd) E (k1_t1_body (F := F) i arg2 harg2 arg3 harg3 arg4 harg4 arg5 harg5 arg6 harg6 v0 v2 v4 k PUnit.unit)
          (fun _ => TripC (F := F) c arg3 arg6 X_arg3 (arg6.view.writes (Elt F) f_arg6 (tripLC arg3 v0 v2 v4 X_arg3 k))) := by
  have hk : k.val < 39 := Nat.lt_of_lt_of_le k.isLt k1_t1_abs.2.1
  unfold k1_t1_body tripLC
  iintro ⟨HR_arg3, HW_arg6⟩
  sl_exec
  sl_step
  sl_close

noncomputable def pbC : ℕ → List (View.Piece (Elt F) S1x39x77x768 .f32)
  | 0 => []
  | k + 1 => if h : k < k1_t1_loop.trips then tripLC arg3 v0 v2 v4 X_arg3 ⟨k, h⟩ ++ pbC k else pbC k

theorem pbC_succ (k : Fin k1_t1_loop.trips) :
    pbC arg3 v0 v2 v4 X_arg3 (k.val + 1) = tripLC arg3 v0 v2 v4 X_arg3 k ++ pbC arg3 v0 v2 v4 X_arg3 k.val := by
  rw [pbC]; exact dif_pos k.isLt

abbrev invC (G_arg6 : BufTy.Contents (Elt F) arg6.view.ty) (k : ℕ) (_u : PUnit) : sProp 𝕄 :=
  iprop((arg3.view.loc (c : Thread nD τ) ↦[arg3.view.set]{fullShare} X_arg3) ∗ (∃ f, (arg6.view.loc (c : Thread nD τ) ↦[arg6.view.set]{fullShare} f) ∗ ⌜f = arg6.view.writes (Elt F) G_arg6 (pbC arg3 v0 v2 v4 X_arg3 k)⌝))

set_option warn.classDefReducibility false in
@[sl_loop] def loopInvC (G_arg6 : BufTy.Contents (Elt F) arg6.view.ty) :
    LoopInvTy_k1_t1 (F := F) Unit ℕ (Pipeline.UD sig nD τ) ℕ 𝒱 c bd E i arg2 harg2 arg3 harg3 arg4 harg4 arg5 harg5 arg6 harg6 v0 v2 v4 where
  inv := invC (F := F) c arg3 arg6 v0 v2 v4 X_arg3 G_arg6
  step k acc := by
    iintro ⟨HR_arg3, ⟨%f_arg6, HW_arg6, %h_arg6⟩⟩
    iapply (wp_wand_r Idealize.ShloMosaic.frame (wpE (defs₀ (F := F)) 𝒱 (c : Thread nD τ) bd) E)
    isplitl [HR_arg3 HW_arg6]
    · iapply (tripC_run (F := F) 𝒱 c bd E i arg2 harg2 arg3 harg3 arg4 harg4 arg5 harg5 arg6 harg6 v0 v2 v4 X_arg3 k f_arg6)
      isplitl [HR_arg3]; · iexact HR_arg3
      iexact HW_arg6
    · iintro %_ ⟨HR_arg3, HW_arg6⟩
      isplitl [HR_arg3]; · iexact HR_arg3
      rw [pbC_succ]
      iexists _; isplitl [HW_arg6]; · iexact HW_arg6
      ipureintro; rw [h_arg6, ← View.writes_append]

theorem off1_val : ∀ k : Fin k1_t1_loop.trips, k1_off1 k 0 = k.val ∧ k1_off1 k 1 = 0 ∧ k1_off1 k 2 = 0 := by decide +kernel
theorem off2_val : ∀ k : Fin k1_t1_loop.trips, k1_off2 k 0 = 0 ∧ k1_off2 k 1 = k.val ∧ k1_off2 k 2 = 0 ∧ k1_off2 k 3 = 0 := by decide +kernel

theorem readAt_whole_unread {sp : Space} {S : Shape} {e : EltTy} {m : Memref sig .tc sp S e} (h : m.IsWhole) (X : S.Idx → Elt F e)
    {off : Fin S.rank → Nat} (hoff : off = fun _ => 0) (inb : ∀ a, off a + S.size a ≤ S.size a) :
    View.readAt (Elt F) m.view (Rect.unit off S.size inb).toLoadRect (h.unread X) = X := by
  refine (View.readAt_eq_ld m.view (h.unread X) (Rect.unit off S.size inb)).trans ?_
  rw [h.read_unread]
  exact View.ld_unit_zero hoff inb X

theorem zero3 : (![0, 0, 0] : Fin 3 → ℕ) = fun _ => 0 := by funext a; fin_cases a <;> rfl

noncomputable def rowOf (k : Fin 39) : Vec F S1x16x768 .f32 := fun y => x (ix3 k (y 1) (y 2))

noncomputable def combineOut : Vec F S1x39x77x768 .f32 :=
  fun j => k1_pay1 v0 v2 v4 (rowOf x (j 1)) (ix4 0 0 (j 2) (j 3))

theorem piece_eq (k : Fin k1_t1_loop.trips) (x' : S1x1x77x768.Idx) :
    k1_pay1 v0 v2 v4 (View.readAt (Elt F) arg3.view (Rect.unit (s := S39x16x768) (k1_off1 k) S1x16x768.size (k1_off1_inb k)).toLoadRect (harg3.unread x)) x'
      = combineOut v0 v2 v4 x ((Rect.unit (s := S1x39x77x768) (k1_off2 k) S1x1x77x768.size (k1_off2_inb k)).emb x') := by
  obtain ⟨a0, a1, a2, a3⟩ := off2_val k
  obtain ⟨b0, b1, b2⟩ := off1_val k
  have hx0 : (x' 0 : ℕ) < 1 := (x' 0).isLt
  have hx1 : (x' 1 : ℕ) < 1 := (x' 1).isLt
  set j := (Rect.unit (s := S1x39x77x768) (k1_off2 k) S1x1x77x768.size (k1_off2_inb k)).emb x'
  have e1 : (j 1 : ℕ) = k1_off2 k 1 + 1 * (x' 1 : ℕ) := rfl
  have e2 : (j 2 : ℕ) = k1_off2 k 2 + 1 * (x' 2 : ℕ) := rfl
  have e3 : (j 3 : ℕ) = k1_off2 k 3 + 1 * (x' 3 : ℕ) := rfl
  have hrow : View.readAt (Elt F) arg3.view (Rect.unit (s := S39x16x768) (k1_off1 k) S1x16x768.size (k1_off1_inb k)).toLoadRect (harg3.unread x) = rowOf x (j 1) := by
    refine funext fun (y : S1x16x768.Idx) => ?_
    have hy0 : (y 0 : ℕ) < 1 := (y 0).isLt
    refine (harg3.readAt_unread x (Rect.unit (s := S39x16x768) (k1_off1 k) S1x16x768.size (k1_off1_inb k)).toLoadRect y).trans (congrArg x (funext fun a => ?_))
    match a with
    | ⟨0, _⟩ => exact Fin.ext (show k1_off1 k 0 + 1 * (y 0 : ℕ) = (j 1 : ℕ) by omega)
    | ⟨1, _⟩ => exact Fin.ext (show k1_off1 k 1 + 1 * (y 1 : ℕ) = (y 1 : ℕ) by omega)
    | ⟨2, _⟩ => exact Fin.ext (show k1_off1 k 2 + 1 * (y 2 : ℕ) = (y 2 : ℕ) by omega)
  have hidx : x' = ix4 0 0 (j 2) (j 3) := by
    funext a
    match a with
    | ⟨0, _⟩ => exact Fin.ext (show (x' 0 : ℕ) = 0 by omega)
    | ⟨1, _⟩ => exact Fin.ext (show (x' 1 : ℕ) = 0 by omega)
    | ⟨2, _⟩ => exact Fin.ext (show (x' 2 : ℕ) = (j 2 : ℕ) by omega)
    | ⟨3, _⟩ => exact Fin.ext (show (x' 3 : ℕ) = (j 3 : ℕ) by omega)
  rw [hrow]
  exact congrArg (k1_pay1 v0 v2 v4 (rowOf x (j 1))) hidx

theorem pieces_pbC :
    ∀ n : ℕ, ∀ p ∈ pbC arg3 v0 v2 v4 (harg3.unread x) n, ∀ x' : p.1.shape.Idx, p.2 x' = combineOut v0 v2 v4 x (p.1.emb x')
  | 0, p, hp, _ => absurd hp List.not_mem_nil
  | n + 1, p, hp, x' => by
    rw [pbC] at hp
    split at hp
    · rename_i h
      rcases List.mem_append.mp hp with hp | hp
      · obtain rfl := List.mem_singleton.mp hp
        exact piece_eq arg3 harg3 v0 v2 v4 x ⟨n, h⟩ x'
      · exact pieces_pbC n p hp x'
    · exact pieces_pbC n p hp x'

theorem cover_pbC (y : S1x39x77x768.Idx) :
    ∃ p ∈ pbC arg3 v0 v2 v4 X_arg3 k1_t1_loop.trips, y ∈ p.1.set :=
  View.cover_of_tiledL (pbC arg3 v0 v2 v4 X_arg3 k1_t1_loop.trips) S1x1x77x768.size (by sl_kernel_rfl) y

theorem read_out (f6 : BufTy.Contents (Elt F) arg6.view.ty) :
    arg6.view.read (Elt F) (arg6.view.writes (Elt F) f6 (pbC arg3 v0 v2 v4 (harg3.unread x) k1_t1_loop.trips)) = combineOut v0 v2 v4 x :=
  funext fun y => View.read_writes_apply_of_pieces arg6.view f6 (combineOut v0 v2 v4 x) _
    (pieces_pbC arg3 harg3 v0 v2 v4 x _) y (cover_pbC arg3 v0 v2 v4 _ y)

theorem combineRun :
    ∀ (K : PUnit → sProp 𝕄),
      iprop(owns (c : Thread nD τ) arg2 fullShare v0 ∗ owns (c : Thread nD τ) arg3 fullShare x ∗ owns (c : Thread nD τ) arg4 fullShare v2 ∗ owns (c : Thread nD τ) arg5 fullShare v4 ∗ (∃ d, owns (c : Thread nD τ) arg6 fullShare d)
          ∗ (iprop(owns (c : Thread nD τ) arg2 fullShare v0 ∗ owns (c : Thread nD τ) arg3 fullShare x ∗ owns (c : Thread nD τ) arg4 fullShare v2 ∗ owns (c : Thread nD τ) arg5 fullShare v4 ∗ owns (c : Thread nD τ) arg6 fullShare (combineOut v0 v2 v4 x)) -∗ K ⟨⟩))
        ⊢ wp frame (wpE (defs₀ (F := F)) Variants.none c none) Set.univ (cc1__combine_kernel i arg2 harg2 arg3 harg3 arg4 harg4 arg5 harg5 arg6 harg6) K := by
  intro K
  simp only [cc1__combine_kernel_eq_skeleton]; unfold cc1__combine_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := harg2.eq_unread hf2
  obtain rfl := harg3.eq_unread hf3
  obtain rfl := harg4.eq_unread hf4
  obtain rfl := harg5.eq_unread hf5
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; · iexact H6
  ipureintro
  rw [readAt_whole_unread harg2 v0 zero3, readAt_whole_unread harg4 v2 zero3, readAt_whole_unread harg5 v4 zero3]
  exact read_out arg3 harg3 arg6 v0 v2 v4 x f6

end Cert.Kernel.Combine
end
-- ==== Proof.KBData.lean ====
import proofs.«402305_j66125316489726_3_alg».proof.Proof.KBCommon
import proofs.«402305_j66125316489726_3_alg».proof.Proof.KBGather
import proofs.«402305_j66125316489726_3_alg».proof.Proof.KBCombine

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Gather Cert.Kernel.Combine

section Region1

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => combineOut (iblk1 V c 0 t) (iblk1 V c 2 t) (iblk1 V c 3 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = combineOut (iblk1 V c 0 t) (iblk1 V c 2 t) (iblk1 V c 3 t) (iblk1 V c 1 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp (MU (F := F)) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp (MU (F := F)) :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (combineRun c (grid1.coords t) _ _ _ _ _ _ _ _ _ _ (iblk1 V c 0 t) (iblk1 V c 2 t) (iblk1 V c 3 t) (iblk1 V c 1 t) _)
  iframe
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Region1

section Region0

variable (V : (c : Dev nD) → (b : Ref sig .tc) → Buf (Elt F) ((c : Thread nD τ).loc b))

noncomputable abbrev osem0 : Fin 16 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MU (F := F)))
      = sems16 c := by
  rw [Pipeline.ownSems0_eq_of_list c osem0 [0, 1, 2, 3, 4, 5, 6, 7, 8, 9, 10, 11, 12, 13, 14, 15] (by decide) (by decide)]; rfl

noncomputable def H0 : Finset (Ref sig .tc) := {main_arg3}
theorem hbmPts0_eq (c : Dev nD) :
    (bigSep H0 (fun b => ((c : Thread nD τ).loc b) ↦{fullShare} V c b) : sProp (MU (F := F))) = iprop(hbPt c hbM (V c main_arg3)) := by
  rw [BI.bigSep_eq_bigSepL_of_eq [main_arg3] (by decide) (by decide)]; rfl

abbrev tblPt (c : Dev nD) : sProp (MU (F := F)) := ((c : Thread nD τ).loc main_v35) ↦{fullShare} V c main_v35

theorem tbl_owns (c : Dev nD) : tblPt V c ⊢ (owns (c : Thread nD τ) idM fullShare (V c main_v35) : sProp (MU (F := F))) :=
  Entails.of_eq (owns_whole (c : Thread nD τ) main_v35 fullShare (V c main_v35)).symm
theorem owns_tbl (c : Dev nD) : (owns (c : Thread nD τ) idM fullShare (V c main_v35) : sProp (MU (F := F))) ⊢ tblPt V c :=
  Entails.of_eq (owns_whole (c : Thread nD τ) main_v35 fullShare (V c main_v35))

def Phi0 (c : Dev nD) : sProp (MU (F := F)) := iprop(Pipeline.ΦD osem0 spec0 H0 V c ∗ tblPt V c)

abbrev Hyps0 (c : Dev nD) : Prop := ∀ (i : grid0.Coords) (r : Fin 16), (idWord i (V c main_v35) r).toNat < 49408

variable (a : (pcfg0 (F := F)).Adm)

noncomputable abbrev ms0 (t : Fin (cfg0 a).N) : Memref sig .tc .vmem S16x1x768 .f32 := spec0_0.stage ((cfg0 a).slots t 0)
noncomputable abbrev hs0 (t : Fin (cfg0 a).N) : (ms0 a t).IsWhole := hstage0_0 (((cfg0 a).slots t 0).cast nbuf0_0)

noncomputable abbrev bodyAt0 (t : Fin (cfg0 a).N) : Prog (TpuEff nD τ sig (Elt F) Λ₀ .tc) PUnit :=
  cc0__gather_kernel ((cfg0 a).grid.coords t) idM (Memref.isWhole_whole _) hbM (Memref.isWhole_whole _) (ms0 a t) (hs0 a t) cc0_scratch0

noncomputable def dat0 (c : Dev nD) : Dat τ (Elt F) Unit ℕ (Pipeline.UD sig nD τ) ℕ (cfg0 a) c where
  A w := V c (Pipeline.arrRef spec0 w)
  after w t := match w with
    | ⟨0, _⟩ => gatherOut c ((cfg0 a).grid.coords t) (V c main_v35) (V c main_arg3)
  Φ _ := Phi0 V c
  q _ := fullShare
  owed _ := 0

theorem after0_0 (c : Dev nD) (t : Fin (cfg0 a).N) : (dat0 V a c).after 0 t = gatherOut c ((cfg0 a).grid.coords t) (V c main_v35) (V c main_arg3) := by dsimp only [dat0]; rfl

def bodyPre0 (c : Dev nD) (t : Fin (cfg0 a).N) : sProp (MU (F := F)) :=
  iprop((dat0 V a c).Φ t.castSucc ∗ (dat0 V a c).owesAt () t.castSucc
    ∗ (∃ d, owns (c : Thread nD τ) (ms0 a t) fullShare ((dat0 V a c).before 0 t d)))

def bodyPost0 (c : Dev nD) (t : Fin (cfg0 a).N) : sProp (MU (F := F)) :=
  iprop((dat0 V a c).Φ t.succ ∗ (dat0 V a c).owesAt () t.succ
    ∗ owns (c : Thread nD τ) (ms0 a t) fullShare ((dat0 V a c).after 0 t))

theorem sound_body0 (c : Dev nD) (hH : Hyps0 V c) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  rw [show (dat0 V a c).Φ t.succ = (dat0 V a c).Φ t.castSucc from rfl, after0_0]
  rw [show (dat0 V a c).Φ t.castSucc = Phi0 V c from rfl]; unfold Phi0
  rw [Pipeline.ΦD_eq, scopedRest0_eq, ownSems00_eq, hbmPts0_eq]
  unfold Dat.owesAt Pipeline.owesWithin
  rw [show (dat0 V a c).owed t.castSucc = 0 from rfl, show (dat0 V a c).owed t.succ = 0 from rfl]
  iintro ⟨⟨⟨HR, Hg, Hq, Hh⟩, Ht⟩, ⟨%W, -, HW⟩, ⟨%d0, H0⟩⟩
  iapply (gatherRunG c ((cfg0 a).grid.coords t) idM (Memref.isWhole_whole _) (ms0 a t) (hs0 a t) (V c main_v35) (V c main_arg3) (hH _) W _)
  isplitl [Ht]; · iapply (tbl_owns V c); iexact Ht
  isplitl [H0]; · iexists _; iexact H0
  isplitl [Hq]; · iexact Hq
  isplitl [Hh]; · iexact Hh
  isplitl [HW]; · iexact HW
  iintro ⟨Ht, H0, Hq, Hh, ⟨%W', HW'⟩⟩
  iframe
  isplitl [Ht]; · iapply (owns_tbl V c); iexact Ht
  iexists W'; isplitr; · ipureintro; exact fun _ _ => Or.inl trivial
  iexact HW'

theorem body_obligation0 (c : Dev nD) (hH : Hyps0 V c) : BodyObligation (dat0 (F := F) V a c) (defs₀ (F := F)) Variants.none () Set.univ := fun t => by
  rw [bigSep_W0, bigSep_W0]
  exact sound_body0 V a c hH t

end Region0

end Cert.Kernel.Hand

end
-- ==== Proof.KBRun.lean ====
import proofs.«402305_j66125316489726_3_alg».proof.Proof.KBData
import proofs.«402305_j66125316489726_3_alg».proof.Proof.KBRunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Gather Cert.Kernel.Combine Cert.Kernel.GenP

section Run

variable (m : (ℓ : Loc nD τ sig) → Buf (Elt F) ℓ)

noncomputable def adm : (p : Fin 2) → (pcfgs (F := F) p).Adm
  | ⟨0, _⟩ => ⟨fun k => match k with | ⟨0, _⟩ => V10 m 0 main_v35, trivial⟩
  | ⟨1, _⟩ => cfg1.toPCfg_adm

noncomputable abbrev VA : (c : Dev nD) → (b : Ref sig .tc) → Buf (Elt F) ((c : Thread nD τ).loc b) := fun c b => V10 m c b

noncomputable def W11 (c : Dev nD) : Valuation τ sig (Elt F) :=
  Pipeline.withArrays spec0 c (V10 m c) fun w => (dat0 (VA m) (adm m 0) c).arrAt w (cfg0 (adm m 0)).N

noncomputable def outsA : Outs (F := F) := fun _ r c => W11 m c r

noncomputable abbrev VB : (c : Dev nD) → (b : Ref sig .tc) → Buf (Elt F) ((c : Thread nD τ).loc b) := fun c b => V12 m (outsA m) c b

noncomputable def W13 (c : Dev nD) : Valuation τ sig (Elt F) :=
  Pipeline.withArrays spec1 c (V12 m (outsA m) c) fun w => (dat1 (VB m) c).arrAt w cfg1.N

noncomputable def outs : Outs (F := F) := fun J r c => if J = 13 then W13 m c r else W11 m c r

noncomputable def pdats : (p : Fin 2) → (c : Dev nD) → Dat τ (Elt F) Unit ℕ (Pipeline.UD sig nD τ) ℕ (Pipeline.pin pcfgs (adm m) p) c
  | ⟨0, _⟩ => fun c => dat0 (VA m) (adm m 0) c
  | ⟨1, _⟩ => fun c => dat1 (VB m) c

noncomputable abbrev 𝒱₀ : Variants := Variants.none
noncomputable abbrev Lz : GSem nD τ sig → Finset Unit := fun _ => ∅
noncomputable abbrev lvz : GSem nD τ sig → Unit → ℕ := fun _ _ => 0

abbrev Rst (c : Dev nD) : sProp (MU (F := F)) := iprop((∃ r, prngReg c r) ∗ ∃ W, owes (c : Thread nD τ) (0 : CellTallies nD τ sig Unit) W)

end Run

section Run2

variable (m : (ℓ : Loc nD τ sig) → Buf (Elt F) ℓ)

theorem hF0 (c : Dev nD) (w : Fin (cfg0 (adm m 0)).W) :
    (dat0 (VA m) (adm m 0) c).arrAt w (cfg0 (adm m 0)).N = V11 m (outs m) c (Pipeline.arrRef spec0 w) := by
  match w with
  | ⟨0, _⟩ =>
    show _ = Function.update (V10 m c) main_v36 (W11 m c main_v36) main_v36
    rw [Function.update_self]
    unfold W11; exact (Pipeline.withArrays_arr spec0 (launch0 (F := F)).win.arr_inj c (V10 m c) (fun w => (dat0 (VA m) (adm m 0) c).arrAt w (cfg0 (adm m 0)).N) 0).symm

theorem hrest0 (c : Dev nD) : ∀ b, b ∉ Finset.univ.image (Pipeline.arrRef spec0) → V11 m (outs m) c b = V10 m c b :=
  fun b hb => V11_of m (outs m) c b (by
    intro h; rw [List.mem_singleton] at h; subst h
    exact hb (Finset.mem_image.mpr ⟨0, Finset.mem_univ _, rfl⟩))

theorem hF1 (c : Dev nD) (w : Fin cfg1.W) :
    (dat1 (VB m) c).arrAt w cfg1.N = V13 m (outs m) c (Pipeline.arrRef spec1 w) := by
  match w with
  | ⟨0, _⟩ | ⟨1, _⟩ | ⟨2, _⟩ | ⟨3, _⟩ =>
    exact ((dat1 (VB m) c).arrAt_in _ rfl _).trans ((A_eq1 (VB m) c _).trans (V13_of m (outs m) c _ (by decide +revert)).symm)
  | ⟨4, _⟩ =>
    show _ = Function.update (V12 m (outs m) c) main_v47 (W13 m c main_v47) main_v47
    rw [Function.update_self]
    unfold W13; exact (Pipeline.withArrays_arr spec1 (launch1 (F := F)).win.arr_inj c (V12 m (outsA m) c) (fun w => (dat1 (VB m) c).arrAt w cfg1.N) 4).symm

theorem hrest1 (c : Dev nD) : ∀ b, b ∉ Finset.univ.image (Pipeline.arrRef spec1) → V13 m (outs m) c b = V12 m (outs m) c b :=
  fun b hb => V13_of m (outs m) c b (by
    intro h; rw [List.mem_singleton] at h; subst h
    exact hb (Finset.mem_image.mpr ⟨4, Finset.mem_univ _, rfl⟩))

set_option backward.isDefEq.respectTransparency.types false in

noncomputable def reg1 : Pipeline.RegionSeg pcfgs (adm m) (pdats m) () defs₀ 𝒱₀ Lz lvz 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (VB m) c).loose
  hwaits := Pipeline.hwaits_of_owed_zero _ _ _ _ Lz lvz 1 fun _ _ => rfl
  pre c := iprop(StableHlo.held (c : Thread nD τ) (Pipeline.ucRefs τ sig) (V12 m (outsA m) c) ∗ Rst c)
  post c := iprop(StableHlo.held (c : Thread nD τ) (Pipeline.ucRefs τ sig) (V13 m (outs m) c) ∗ Rst c)
  X c := iprop(∃ r, prngReg c r)
  Y c := iprop(∃ r, prngReg c r)
  Z c := Pipeline.unscopedRest spec1 c (VB m c)
  hentry c := by
    rw [Pipeline.ownSems0_none]
    have hsplit := Pipeline.arrays_of_unscopedBufs (p := 1) pcfgs (adm m) (pdats m) (launch1 (F := F)).win (launch1 (F := F)).arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m 1 c).Φ 0 = Pipeline.ΦA spec1 c from rfl]; unfold Pipeline.ΦA
    iintro ⟨Hp, -, Hr⟩
    iframe
  hout c := by
    rw [Pipeline.ownSems0_none, show (pdats m 1 c).Φ (Fin.last _) = Pipeline.ΦA spec1 c from rfl]; unfold Pipeline.ΦA
    iintro ⟨Hr, Hp⟩
    iframe
    iempintro
  hexit c := by
    have hjoin := Pipeline.unscopedBufs_of_arrays (p := 1) pcfgs (adm m)
      (launch1 (F := F)).win (launch1 (F := F)).arr_whole c (pdats m) ((pdats m 1 c).share_full fun _ => rfl)
      (VB m c) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Run2

section Run3

variable (m : (ℓ : Loc nD τ sig) → Buf (Elt F) ℓ)

noncomputable def Hs0 : Finset (Ref sig .tc) := {main_arg3, main_v35}
theorem Hs0_sub : Hs0 ⊆ Pipeline.restRefs sig spec0 := by decide
theorem Hs0_eq (c : Dev nD) :
    (bigSep Hs0 (fun b => ((c : Thread nD τ).loc b) ↦{fullShare} VA m c b) : sProp (MU (F := F)))
      = iprop(hbPt c hbM (VA m c main_arg3) ∗ tblPt (VA m) c) := by
  rw [BI.bigSep_eq_bigSepL_of_eq [main_arg3, main_v35] (by decide) (by decide)]; rfl

theorem prefHeld0_eq (c : Dev nD) :
    (Pipeline.prefHeld (pcfgs (F := F) 0).pre c (fun _ => fullShare) (adm m 0).1 : sProp (MU (F := F))) = tblPt (VA m) c := by
  obtain rfl : c = 0 := Subsingleton.elim _ _
  unfold Pipeline.prefHeld
  rw [bigSep_W0]; rfl

theorem rest0_split (c : Dev nD) :
    (Pipeline.unscopedRest spec0 c (VA m c) : sProp (MU (F := F)))
      = iprop((bigSep Hs0 fun b => ((c : Thread nD τ).loc b) ↦{fullShare} VA m c b)
          ∗ (bigSep (Pipeline.restRefs sig spec0 \ Hs0) fun b => ((c : Thread nD τ).loc b) ↦{fullShare} VA m c b)) := by
  unfold Pipeline.unscopedRest; exact BI.bigSep_sdiff_split Hs0_sub

set_option backward.isDefEq.respectTransparency.types false in

noncomputable def reg0 (hH : ∀ c, Hyps0 (VA m) c) : Pipeline.RegionSeg pcfgs (adm m) (pdats m) () defs₀ 𝒱₀ Lz lvz 0 where
  win := (launch0 (F := F)).win.to₀
  block_pos := (launch0 (F := F)).block_pos
  stage_whole := (launch0 (F := F)).stage_whole
  K := Fin 16
  osem := osem0
  ho := ownSemFacts0
  hbody c := (body_obligation0 (VA m) (adm m 0) c (hH c)).loose
  hwaits := Pipeline.hwaits_of_owed_zero _ _ _ _ Lz lvz 0 fun _ _ => rfl
  pre c := iprop(StableHlo.held (c : Thread nD τ) (Pipeline.ucRefs τ sig) (V10 m c) ∗ Rst c)
  post c := iprop(StableHlo.held (c : Thread nD τ) (Pipeline.ucRefs τ sig) (V11 m (outs m) c) ∗ Rst c)
  X c := iprop((∃ r, prngReg c r) ∗ Pipeline.ownSems0 osem0 c ∗ hbPt c hbM (VA m c main_arg3))
  Y c := iprop((∃ r, prngReg c r) ∗ hbPt c hbM (VA m c main_arg3) ∗ tblPt (VA m) c)
  Z c := bigSep (Pipeline.restRefs sig spec0 \ Hs0) fun b => ((c : Thread nD τ).loc b) ↦{fullShare} VA m c b
  hentry c := by
    have hsplit := Pipeline.arrays_of_unscopedBufs (p := 0) pcfgs (adm m) (pdats m) (launch0 (F := F)).win (launch0 (F := F)).arr_whole c
      ((pdats m 0 c).share_full fun _ => rfl) (VA m c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (rest0_split m c)) $$ Hrest
    icases H' with ⟨HH, HR⟩
    ihave H'' := (Entails.of_eq (Hs0_eq m c)) $$ HH
    icases H'' with ⟨Hh, Ht⟩
    imodintro
    rw [prefHeld0_eq]
    iframe
    unfold Pipeline.Dat.owesAt Pipeline.owesWithin
    icases HO with ⟨%W, HO⟩; iexists W; isplitr; · ipureintro; exact fun _ _ => Or.inl trivial
    iexact HO
  hin c := by
    rw [show (pdats m 0 c).Φ 0 = Phi0 (VA m) c from rfl]; unfold Phi0; rw [Pipeline.ΦD_eq, hbmPts0_eq, prefHeld0_eq]
    iintro ⟨⟨Hp, Ho, Hh⟩, Ht, Hr⟩
    iframe
  hout c := by
    rw [show (pdats m 0 c).Φ (Fin.last _) = Phi0 (VA m) c from rfl]; unfold Phi0; rw [Pipeline.ΦD_eq, hbmPts0_eq]
    iintro ⟨⟨Hr, Hp, Ho, Hh⟩, Ht⟩
    iframe
  hexit c := by
    have hjoin := Pipeline.unscopedBufs_of_arrays (p := 0) pcfgs (adm m)
      (launch0 (F := F)).win (launch0 (F := F)).arr_whole c (pdats m) ((pdats m 0 c).share_full fun _ => rfl)
      (VA m c) (fun b => V11 m (outs m) c b) ((pdats m 0 c).arrAt · (cfg0 (adm m 0)).N) (hF0 m c) (hrest0 m c)
    rw [Pipeline.unscopedBufs_held] at hjoin
    iintro ⟨Ha, HO, ⟨HY, Hh, Ht⟩, HR⟩
    ihave HH := (Entails.of_eq (Hs0_eq m c).symm) $$ [Hh Ht]
    · iframe
    ihave Hrest := (Entails.of_eq (rest0_split m c).symm) $$ [HH HR]
    · iframe
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Run3

section Run4

variable (m : (ℓ : Loc nD τ sig) → Buf (Elt F) ℓ) (ρ : Dev nD → PrngReg)

set_option backward.isDefEq.respectTransparency.types false in

theorem run_main (hH : ∀ c, Hyps0 (VA m) c) :
    θ_run defs (onTc (τ := τ) (main (F := F))) ⟨m, fun _ => 0, ρ⟩ (fun r => ∀ c : Dev nD,
      r.2.mem ((c.tc : Thread nD τ).loc main_v47) = V13 m (outs m) c main_v47
      ∧ r.2.mem ((c.tc : Thread nD τ).loc main_v34) = V13 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m (EP := embL) (ι := ()) (𝒱₀ := 𝒱₀) (L := Lz) (lv := lvz) (hL := fun _ _ => rfl) (ρ := ρ) (outs := outs m) (a := adm m) (pdats := pdats m)
    (O₀ := 0) (G := fun _ => iprop(emp))
    (u₀ := (initOf (Pipeline.cells (Pipeline.pin pcfgs (adm m)) (cellOf_inj (adm m))) (Pipeline.launchToks (Pipeline.pin pcfgs (adm m)) (cellOf_inj (adm m))), 1))
    (hu₀ := by
      iintro Hu
      ihave H := (ownU_pair _ _) $$ Hu
      icases H with ⟨HP, -⟩
      imodintro
      isplitl [HP]; · iexact HP
      iapply (show (BI.emp : sProp (MU (F := F))) ⊢ bigSep Finset.univ (fun _ : Dev nD => (BI.emp : sProp (MU (F := F)))) from by rw [BI.bigSep_emp_const])
      iempintro)
    (E := fun _ c => Rst c)
    (hE0 := Pipeline.initEach Lz lvz fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m hH) (hpre0 := fun c => .rfl) (hpost0 := fun c => .rfl)
    (R1 := reg1 m) (hpre1 := fun c => .rfl) (hpost1 := fun c => .rfl)

end Run4

end Cert.Kernel.Hand

end
-- ==== Proof.KBIds.lean ====
import proofs.«402305_j66125316489726_3_alg».proof.Proof.Gen.Kernel.Regions
import proofs.«402305_j66125316489726_3_alg».proof.Proof.RefRead
import proofs.«402305_j66125316489726_3_alg».proof.Proof.RefSide
import proofs.«402305_j66125316489726_3_alg».proof.Pre_finite_inputs
import Idealize.ShloMosaic.Lib.Pipeline.Value
import Idealize.ShloMosaic.Lib.ValueIdx
import Idealize.ShloMosaic.Lib.StableHlo.Run
import Idealize.ShloMosaic.Lib.StableHlo.Predicate
import Idealize.ShloMosaic.Lib.ReduceAll
import Idealize.ShloMosaic.PureOps.Ideal

noncomputable section

namespace Cert.Kernel.Ids

open Cert.Kernel Cert.Kernel.Gen Idealize.ShloMosaic Idealize.ShloMosaic.TcCoe Idealize.SL.Sem Idealize.ShloMosaic.StableHlo
open Idealize.ShloMosaic.ValueIdx
open Cert.ReferenceIdeal.Read

variable {F : FTy → Type} [FloatOps F]

instance : Subsingleton Cert.Pre_finite_inputs.S_.Idx := ⟨fun a b => funext fun d => d.elim0⟩

theorem toNat_lt_of_signed (w : BitVec 32) (h0 : IntOp.cmpi .sge w (0#32) = 1#1) (h1 : IntOp.cmpi .slt w (49408#32) = 1#1) :
    w.toNat < 49408 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

theorem tok_of_pre [Cert.Pre_finite_inputs.Facts]
    (x0 : IVec Cert.Pre_finite_inputs.S16x77 32) (x1 : IVec Cert.Pre_finite_inputs.S16 32)
    (x2 : FVec F Cert.Pre_finite_inputs.S117x16x768 .f32) (x3 : FVec F Cert.Pre_finite_inputs.S49408x768 .f32)
    (x4 : IVec Cert.Pre_finite_inputs.S1x16 32)
    (h : Cert.Pre_finite_inputs.fn (F := F) x0 x1 x2 x3 x4 = fun _ => 1#1) : ∀ i, (x0 i).toNat < 49408 := by
  intro i
  have e := congrFun h ValueIdx.ix0
  dsimp only [Cert.Pre_finite_inputs.fn] at e
  have e2 := (IntOp.andi_eq_one.1 e).2
  have e3 := Host.reduce_andi_all _ _ _ _ _ e2 i
  have e4 := IntOp.andi_eq_one.1 e3
  exact toNat_lt_of_signed _ e4.1 e4.2

section Stages
variable (W : Valuation τ sig (Elt F))
variable (x0 : (⟨S16x77, .i32⟩ : BufTy).Contents (Elt F)) (x1 : (⟨S16, .i32⟩ : BufTy).Contents (Elt F))
  (x4 : (⟨S1x16, .i32⟩ : BufTy).Contents (Elt F))

theorem st1_v17 (h2 : W main_v2 = val_main_v2 (F := F)) (h16 : W main_v16 = val_main_v16 (F := F))
    (h14 : W main_v14 = val_main_v14 (F := F) x1) : after hostOps0_1 W main_v17 = val_main_v17 (F := F) x1 := by
  after_results_simp; simp only [cast_eq]; rw [h2, h16, h14]; rfl

theorem st3_v18 (hc1 : W main_c_1 = val_main_c_1 (F := F)) (hc2 : W main_c_2 = val_main_c_2 (F := F))
    (h17 : W main_v17 = val_main_v17 (F := F) x1) : after hostOps0_3 W main_v18 = val_main_v18 (F := F) x1 := by
  after_results_simp; simp only [cast_eq]; rw [hc1, hc2, h17]; rfl

theorem st4_v23 (h2 : W main_v2 = val_main_v2 (F := F)) (h0 : W main_v0 = val_main_v0 (F := F) x1) :
    after hostOps0_4 W main_v23 = val_main_v23 (F := F) x1 := by
  after_results; rw [h2, h0]; rfl

theorem st5_v24 (hc4 : W main_c_4 = val_main_c_4 (F := F)) (hc5 : W main_c_5 = val_main_c_5 (F := F))
    (h23 : W main_v23 = val_main_v23 (F := F) x1) : after hostOps0_5 W main_v24 = val_main_v24 (F := F) x1 := by
  after_results_simp; simp only [cast_eq]; rw [hc4, hc5, h23]; rfl

theorem st6_v25 (h18 : W main_v18 = val_main_v18 (F := F) x1) (h0 : W main_arg0 = x0) :
    after hostOps0_6 W main_v25 = val_main_v25 (F := F) x0 x1 := by
  after_results_simp; simp only [cast_eq]; rw [h18, h0]; rfl

theorem st7_v33 (h24 : W main_v24 = val_main_v24 (F := F) x1) (h4 : W main_arg4 = x4) :
    after hostOps0_7 W main_v33 = val_main_v33 (F := F) x1 x4 := by
  after_results; rw [h24, h4]; rfl

theorem st8_v34 (h11 : W main_v11 = val_main_v11 (F := F) x1) (h33 : W main_v33 = val_main_v33 (F := F) x1 x4)
    (h25 : W main_v25 = val_main_v25 (F := F) x0 x1) : after hostOps0_8 W main_v34 = val_main_v34 (F := F) x0 x1 x4 := by
  after_results_simp; simp only [cast_eq]; rw [h11, h33, h25]; rfl

theorem st9_v35 : after hostOps0_9 W main_v35 = fun i => shapeCast S1232 (W main_v25) shapeCasts_S16x77_S1232 i := by
  after_results; rfl

end Stages

section Chain
variable (m : (ℓ : Loc nD τ sig) → Buf (Elt F) ℓ) (c : Dev nD)

theorem V2_v17 : V2 m c main_v17 = val_main_v17 (F := F) (m ((c : Thread nD τ).loc main_arg1)) :=
  st1_v17 (V1 m c) _ (by after_results; rfl) (by after_results; rfl) (by after_results; rfl)

theorem V4_v18 : V4 m c main_v18 = val_main_v18 (F := F) (m ((c : Thread nD τ).loc main_arg1)) :=
  st3_v18 (V3 m c) _ (by after_results; rfl) (by after_results; rfl) ((V3_of m c main_v17 (by decide)).trans (V2_v17 m c))

theorem V6_v24 : V6 m c main_v24 = val_main_v24 (F := F) (m ((c : Thread nD τ).loc main_arg1)) :=
  st5_v24 (V5 m c) _ (by after_results; rfl) (by after_results; rfl) (st4_v23 (V4 m c) _ (by rw [V4_of, V3_of, V2_of] <;> first | (after_results; rfl) | decide)
      (by rw [V4_of, V3_of, V2_of] <;> first | (after_results; rfl) | decide))

theorem V7_v25 : V7 m c main_v25 = val_main_v25 (F := F) (m ((c : Thread nD τ).loc main_arg0)) (m ((c : Thread nD τ).loc main_arg1)) :=
  st6_v25 (V6 m c) _ _ (by rw [V6_of, V5_of, V4_v18] <;> decide)
    (by rw [V6_of, V5_of, V4_of, V3_of, V2_of, V1_of] <;> first | rfl | decide)

theorem V10_v35 : V10 m c main_v35 = fun i => shapeCast S1232
    (val_main_v25 (F := F) (m ((c : Thread nD τ).loc main_arg0)) (m ((c : Thread nD τ).loc main_arg1))) shapeCasts_S16x77_S1232 i :=
  (st9_v35 (V9 m c)).trans (by rw [V9_of, V8_of, V7_v25] <;> decide)

theorem ids_apply (b : Fin 16) (l : Fin 77) :
    V10 m c main_v35 (ValueIdx.ix1 (⟨77 * b.val + l.val, by omega⟩ : Fin 1232))
      = val_main_v25 (F := F) (m ((c : Thread nD τ).loc main_arg0)) (m ((c : Thread nD τ).loc main_arg1)) (ValueIdx.ix2 b l) := by
  rw [V10_v35]
  exact shapeCast_apply _ shapeCasts_S16x77_S1232 _ (ValueIdx.ix2 b l)
    (by rw [Shape.rowMajor_val_two, Shape.rowMajor_val_one]; show b.val * 77 + l.val = 77 * b.val + l.val; omega)

end Chain

section Range
variable (m : (ℓ : Loc nD τ sig) → Buf (Elt F) ℓ) (c : Dev nD)

theorem ids_lt [Cert.Pre_finite_inputs.Facts]
    (hpre : Cert.Pre_finite_inputs.fn (F := F) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1)
    (k : Fin 1232) : (V10 m c main_v35 (ValueIdx.ix1 k)).toNat < 49408 := by
  have hk : k = (⟨77 * (⟨k.val / 77, by omega⟩ : Fin 16).val + (⟨k.val % 77, by omega⟩ : Fin 77).val, by omega⟩ : Fin 1232) :=
    Fin.ext (by show k.val = 77 * (k.val / 77) + k.val % 77; omega)
  rw [hk, ids_apply m c, Cert.ReferenceIdeal.RefSide.tok_eq]
  exact tok_of_pre _ _ _ _ _ hpre _

end Range

section Shared
variable (m : (ℓ : Loc nD τ sig) → Buf (Elt F) ℓ) (c : Dev nD)

theorem V8_v33 : V8 m c main_v33 = val_main_v33 (F := F) (m ((c : Thread nD τ).loc main_arg1)) (m ((c : Thread nD τ).loc main_arg4)) :=
  st7_v33 (V7 m c) _ _ ((V7_of m c main_v24 (by decide)).trans (V6_v24 m c)) (by rw [V7_of, V6_of, V5_of, V4_of, V3_of, V2_of, V1_of] <;> first | rfl | decide)

theorem V8_v11 : V8 m c main_v11 = val_main_v11 (F := F) (m ((c : Thread nD τ).loc main_arg1)) := by
  rw [V8_of, V7_of, V6_of, V5_of, V4_of, V3_of, V2_of] <;> first | (after_results; rfl) | decide

theorem V10_v11 : V10 m c main_v11 = val_main_v11 (F := F) (m ((c : Thread nD τ).loc main_arg1)) := by
  rw [V10_of, V9_of, V8_v11] <;> decide

theorem V10_v24 : V10 m c main_v24 = val_main_v24 (F := F) (m ((c : Thread nD τ).loc main_arg1)) := by
  rw [V10_of, V9_of, V8_of, V7_of, V6_v24] <;> decide

theorem V10_v34 : V10 m c main_v34
    = val_main_v34 (F := F) (m ((c : Thread nD τ).loc main_arg0)) (m ((c : Thread nD τ).loc main_arg1)) (m ((c : Thread nD τ).loc main_arg4)) :=
  (V10_of m c main_v34 (by decide)).trans <|
    st8_v34 (V8 m c) _ _ _ (V8_v11 m c) (V8_v33 m c) ((V8_of m c main_v25 (by decide)).trans (V7_v25 m c))

end Shared

end Cert.Kernel.Ids

end
-- ==== Proof.KBHyps.lean ====
import proofs.«402305_j66125316489726_3_alg».proof.Proof.KBRun
import proofs.«402305_j66125316489726_3_alg».proof.Proof.KBIds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Gather Cert.Kernel.Ids

theorem hyps_of_pre [Cert.Pre_finite_inputs.Facts] (m : (ℓ : Loc nD τ sig) → Buf (Elt F) ℓ)
    (hpre : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    ∀ c, Hyps0 (VA m) c := fun c i r => ids_lt m c (hpre c) _

end Cert.Kernel.Hand

end
-- ==== Proof.KIOut1.lean ====
import proofs.«402305_j66125316489726_3_alg».proof.Proof.KIData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Gather Cert.KernelIdeal.Combine

section OutArray

open Idealize.ShloMosaic.ValueIdx

variable (V : (c : Dev nD) → (b : Ref sig .tc) → Buf (Elt F) ((c : Thread nD τ).loc b))

noncomputable abbrev pt1 (vi : Fin 3) (b : Fin 16) : Fin cfg1.N := ⟨16 * vi.val + b.val, by rw [show cfg1.N = 48 from N_1]; omega⟩

theorem eq_pt1 (t : Fin cfg1.N) : ∃ (vi : Fin 3) (b : Fin 16), t = pt1 vi b := by
  have hN : cfg1.N = 48 := N_1
  have ht := t.isLt
  exact ⟨⟨t.val / 16, by omega⟩, ⟨t.val % 16, by omega⟩, Fin.ext (by show t.val = 16 * (t.val / 16) + t.val % 16; omega)⟩

theorem idx1_0 : ∀ (vi : Fin 3) (b : Fin 16), win1_0.index (pt1 vi b) (0 : Fin 3) = b.val ∧ win1_0.index (pt1 vi b) (1 : Fin 3) = 0 ∧ win1_0.index (pt1 vi b) (2 : Fin 3) = 0 := by
  decide +kernel

theorem idx1_1 : ∀ (vi : Fin 3) (b : Fin 16), win1_1.index (pt1 vi b) (0 : Fin 3) = vi.val ∧ win1_1.index (pt1 vi b) (1 : Fin 3) = 0 ∧ win1_1.index (pt1 vi b) (2 : Fin 3) = 0 := by
  decide +kernel

theorem idx1_2 : ∀ (vi : Fin 3) (b : Fin 16), win1_2.index (pt1 vi b) (0 : Fin 3) = b.val ∧ win1_2.index (pt1 vi b) (1 : Fin 3) = 0 ∧ win1_2.index (pt1 vi b) (2 : Fin 3) = 0 := by
  decide +kernel

theorem idx1_3 : ∀ (vi : Fin 3) (b : Fin 16), win1_3.index (pt1 vi b) (0 : Fin 3) = b.val ∧ win1_3.index (pt1 vi b) (1 : Fin 3) = 0 ∧ win1_3.index (pt1 vi b) (2 : Fin 3) = 0 := by
  decide +kernel

theorem idx1_4 : ∀ (vi : Fin 3) (b : Fin 16), win1_4.index (pt1 vi b) (0 : Fin 4) = b.val ∧ win1_4.index (pt1 vi b) (1 : Fin 4) = vi.val
    ∧ win1_4.index (pt1 vi b) (2 : Fin 4) = 0 ∧ win1_4.index (pt1 vi b) (3 : Fin 4) = 0 := by
  decide +kernel

theorem iblk1_0_apply (c : Dev nD) (vi : Fin 3) (b : Fin 16) (l : Fin 77) (d : Fin 768) :
    (iblk1 V c 0 (pt1 vi b) : S1x77x768.Idx → Elt F .f32) (ix3 (0 : Fin 1) l d)
      = (V c main_v37 : S16x77x768.Idx → Elt F .f32) (ix3 b l d) := by
  obtain ⟨e0, e1, e2⟩ := idx1_0 vi b
  show (V c main_v37 : S16x77x768.Idx → Elt F .f32) (((cfg1.win 0).blk (pt1 vi b)).view.emb (ix3 (0 : Fin 1) l d)) = _
  refine congrArg _ (funext fun a => Fin.ext ?_)
  match a with
  | ⟨0, _⟩ => show win1_0.index (pt1 vi b) (0 : Fin 3) * 1 + 1 * 0 = b.val; omega
  | ⟨1, _⟩ => show win1_0.index (pt1 vi b) (1 : Fin 3) * 77 + 1 * l.val = l.val; omega
  | ⟨2, _⟩ => show win1_0.index (pt1 vi b) (2 : Fin 3) * 768 + 1 * d.val = d.val; omega

theorem iblk1_1_apply (c : Dev nD) (vi : Fin 3) (b : Fin 16) (vv : Fin 39) (k : Fin 16) (d : Fin 768) :
    (iblk1 V c 1 (pt1 vi b) : S39x16x768.Idx → Elt F .f32) (ix3 vv k d)
      = (V c main_arg2 : S117x16x768.Idx → Elt F .f32) (ix3 (⟨39 * vi.val + vv.val, by omega⟩ : Fin 117) k d) := by
  obtain ⟨e0, e1, e2⟩ := idx1_1 vi b
  show (V c main_arg2 : S117x16x768.Idx → Elt F .f32) (((cfg1.win 1).blk (pt1 vi b)).view.emb (ix3 vv k d)) = _
  refine congrArg _ (funext fun a => Fin.ext ?_)
  match a with
  | ⟨0, _⟩ => show win1_1.index (pt1 vi b) (0 : Fin 3) * 39 + 1 * vv.val = 39 * vi.val + vv.val; omega
  | ⟨1, _⟩ => show win1_1.index (pt1 vi b) (1 : Fin 3) * 16 + 1 * k.val = k.val; omega
  | ⟨2, _⟩ => show win1_1.index (pt1 vi b) (2 : Fin 3) * 768 + 1 * d.val = d.val; omega

theorem iblk1_2_apply (c : Dev nD) (vi : Fin 3) (b : Fin 16) (l : Fin 77) (k : Fin 16) :
    (iblk1 V c 2 (pt1 vi b) : S1x77x16.Idx → Elt F .f32) (ix3 (0 : Fin 1) l k)
      = (V c main_v46 : S16x77x16.Idx → Elt F .f32) (ix3 b l k) := by
  obtain ⟨e0, e1, e2⟩ := idx1_2 vi b
  show (V c main_v46 : S16x77x16.Idx → Elt F .f32) (((cfg1.win 2).blk (pt1 vi b)).view.emb (ix3 (0 : Fin 1) l k)) = _
  refine congrArg _ (funext fun a => Fin.ext ?_)
  match a with
  | ⟨0, _⟩ => show win1_2.index (pt1 vi b) (0 : Fin 3) * 1 + 1 * 0 = b.val; omega
  | ⟨1, _⟩ => show win1_2.index (pt1 vi b) (1 : Fin 3) * 77 + 1 * l.val = l.val; omega
  | ⟨2, _⟩ => show win1_2.index (pt1 vi b) (2 : Fin 3) * 16 + 1 * k.val = k.val; omega

theorem iblk1_3_apply (c : Dev nD) (vi : Fin 3) (b : Fin 16) (l : Fin 77) :
    (iblk1 V c 3 (pt1 vi b) : S1x1x77.Idx → Elt F .f32) (ix3 (0 : Fin 1) (0 : Fin 1) l)
      = (V c main_v39 : S16x1x77.Idx → Elt F .f32) (ix3 b (0 : Fin 1) l) := by
  obtain ⟨e0, e1, e2⟩ := idx1_3 vi b
  show (V c main_v39 : S16x1x77.Idx → Elt F .f32) (((cfg1.win 3).blk (pt1 vi b)).view.emb (ix3 (0 : Fin 1) (0 : Fin 1) l)) = _
  refine congrArg _ (funext fun a => Fin.ext ?_)
  match a with
  | ⟨0, _⟩ => show win1_3.index (pt1 vi b) (0 : Fin 3) * 1 + 1 * 0 = b.val; omega
  | ⟨1, _⟩ => show win1_3.index (pt1 vi b) (1 : Fin 3) * 1 + 1 * 0 = 0; omega
  | ⟨2, _⟩ => show win1_3.index (pt1 vi b) (2 : Fin 3) * 77 + 1 * l.val = l.val; omega

theorem flushed1_4_eq_of {c : Dev nD} (dat : Dat τ (Elt F) Unit ℕ (Pipeline.UD sig nD τ) ℕ cfg1 c) (G : S16x117x77x768.Idx → Elt F .f32)
    (hG : ∀ (vi : Fin 3) (b : Fin 16) (vv : Fin 39) (l : Fin 77) (d : Fin 768),
      (dat.after 4 (pt1 vi b) : S1x39x77x768.Idx → Elt F .f32) (ix4 (0 : Fin 1) vv l d)
        = G (ix4 b (⟨39 * vi.val + vv.val, by omega⟩ : Fin 117) l d))
    (t : Fin cfg1.N) :
    dat.flushed 4 t = ((cfg1.win 4).blk t).view.read (Elt F) G := by
  obtain ⟨vi, b, rfl⟩ := eq_pt1 t
  obtain ⟨e0, e1, e2, e3⟩ := idx1_4 vi b
  funext y
  have h0 : (y 0).val < 1 := (y 0).isLt
  have h1 : (y 1).val < 39 := (y 1).isLt
  have h2 : (y 2).val < 77 := (y 2).isLt
  have h3 : (y 3).val < 768 := (y 3).isLt
  show (dat.after 4 (pt1 vi b) : S1x39x77x768.Idx → Elt F .f32) ((cfg1.win 4).xinj (grid1.coords (pt1 vi b)) y)
    = G (((cfg1.win 4).blk (pt1 vi b)).view.emb y)
  have hy : (cfg1.win 4).xinj (grid1.coords (pt1 vi b)) y = ix4 (0 : Fin 1) (⟨(y 1).val, h1⟩ : Fin 39) (⟨(y 2).val, h2⟩ : Fin 77) (⟨(y 3).val, h3⟩ : Fin 768) := by
    funext a; apply Fin.ext
    match a with
    | ⟨0, _⟩ => show (y 0).val = 0; omega
    | ⟨1, _⟩ => rfl
    | ⟨2, _⟩ => rfl
    | ⟨3, _⟩ => rfl
  rw [hy, hG]
  refine congrArg G (funext fun a => Fin.ext ?_)
  match a with
  | ⟨0, _⟩ => show b.val = win1_4.index (pt1 vi b) (0 : Fin 4) * 1 + 1 * (y 0).val; omega
  | ⟨1, _⟩ => show 39 * vi.val + (y 1).val = win1_4.index (pt1 vi b) (1 : Fin 4) * 39 + 1 * (y 1).val; omega
  | ⟨2, _⟩ => show (y 2).val = win1_4.index (pt1 vi b) (2 : Fin 4) * 77 + 1 * (y 2).val; omega
  | ⟨3, _⟩ => show (y 3).val = win1_4.index (pt1 vi b) (3 : Fin 4) * 768 + 1 * (y 3).val; omega

theorem mem_blk1_4 (t : Fin cfg1.N) (i : S16x117x77x768.Idx) :
    i ∈ ((cfg1.win 4).blk t).view.set ↔ ∀ a : Fin 4, win1_4.index t a * S1x39x77x768.size a ≤ (i a).val ∧ (i a).val < win1_4.index t a * S1x39x77x768.size a + S1x39x77x768.size a := by
  show i ∈ ((View.whole main_v47).slice (win1_4.rect t)).set ↔ _
  rw [View.set_slice_whole, Rect.mem_set_unit]
  exact Iff.rfl

theorem cover1_4 (i : S16x117x77x768.Idx) :
    ∃ t : Fin cfg1.N, (cfg1.win 4).flush t = true ∧ i ∈ ((cfg1.win 4).blk t).view.set := by
  have hi0 : (i 0).val < 16 := (i 0).isLt
  have hi1 : (i 1).val < 117 := (i 1).isLt
  have hi2 : (i 2).val < 77 := (i 2).isLt
  have hi3 : (i 3).val < 768 := (i 3).isLt
  obtain ⟨vi, hvi⟩ : ∃ vi : Fin 3, vi.val = (i 1).val / 39 := ⟨⟨_, by omega⟩, rfl⟩
  obtain ⟨b, hb⟩ : ∃ b : Fin 16, b.val = (i 0).val := ⟨⟨_, hi0⟩, rfl⟩
  obtain ⟨e0, e1, e2, e3⟩ := idx1_4 vi b
  refine ⟨pt1 vi b, flush1_4 _, (mem_blk1_4 _ i).mpr fun a => ?_⟩
  match a with
  | ⟨0, _⟩ => show win1_4.index _ (0 : Fin 4) * 1 ≤ (i 0).val ∧ (i 0).val < win1_4.index _ (0 : Fin 4) * 1 + 1; omega
  | ⟨1, _⟩ => show win1_4.index _ (1 : Fin 4) * 39 ≤ (i 1).val ∧ (i 1).val < win1_4.index _ (1 : Fin 4) * 39 + 39; omega
  | ⟨2, _⟩ => show win1_4.index _ (2 : Fin 4) * 77 ≤ (i 2).val ∧ (i 2).val < win1_4.index _ (2 : Fin 4) * 77 + 77; omega
  | ⟨3, _⟩ => show win1_4.index _ (3 : Fin 4) * 768 ≤ (i 3).val ∧ (i 3).val < win1_4.index _ (3 : Fin 4) * 768 + 768; omega

theorem out1_array_of_combine (c : Dev nD) (G : S16x117x77x768.Idx → Elt F .f32)
    (hG : ∀ (vi : Fin 3) (b : Fin 16) (vv : Fin 39) (l : Fin 77) (d : Fin 768),
      (combineOut (iblk1 V c 0 (pt1 vi b)) (iblk1 V c 2 (pt1 vi b)) (iblk1 V c 3 (pt1 vi b)) (iblk1 V c 1 (pt1 vi b)) : S1x39x77x768.Idx → Elt F .f32) (ix4 (0 : Fin 1) vv l d)
        = G (ix4 b (⟨39 * vi.val + vv.val, by omega⟩ : Fin 117) l d)) :
    (dat1 V c).arrAt 4 cfg1.N = G :=
  (dat1 V c).arrAt_eq_of_cover 4 G (fun t _ => flushed1_4_eq_of (dat1 V c) G (fun vi b vv l d => by rw [after1_4]; exact hG vi b vv l d) t) cover1_4

end OutArray

end Cert.KernelIdeal.Hand

end
-- ==== Proof.KIOut0.lean ====
import proofs.«402305_j66125316489726_3_alg».proof.Proof.KIData
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Gather Cert.KernelIdeal.Combine

section Out0Array

open Idealize.ShloMosaic.ValueIdx (ix3 eq_ix3)

variable (V : (c : Dev nD) → (b : Ref sig .tc) → Buf (Elt F) ((c : Thread nD τ).loc b))
variable (a : (pcfg0 (F := F)).Adm)

theorem N0_at : (cfg0 a).N = 77 := N_0

theorem rowBlock_idx : ∀ t : Fin grid0.N, cc0_transform_1 (grid0.coords t) (0 : Fin 3) = t.val
    ∧ cc0_transform_1 (grid0.coords t) (1 : Fin 3) = 0 ∧ cc0_transform_1 (grid0.coords t) (2 : Fin 3) = 0
    ∧ (grid0.coords t 0).val = t.val := by
  decide +kernel

theorem rowBlock_index (t : Fin (cfg0 a).N) : ((cfg0 a).win 0).index t (0 : Fin 3) = t.val
    ∧ ((cfg0 a).win 0).index t (1 : Fin 3) = 0 ∧ ((cfg0 a).win 0).index t (2 : Fin 3) = 0 :=
  ⟨(rowBlock_idx t).1, (rowBlock_idx t).2.1, (rowBlock_idx t).2.2.1⟩

theorem flush0_0 (t : Fin (cfg0 a).N) : ((cfg0 a).win 0).flush t = true := by
  unfold Pipeline.Window.flush
  show (true && (decide (t.val + 1 = (cfg0 a).N) || decide (∃ h : t.val + 1 < (cfg0 a).N, ((cfg0 a).win 0).index ⟨t.val + 1, h⟩ ≠ ((cfg0 a).win 0).index t))) = true
  rw [Bool.true_and, Bool.or_eq_true, decide_eq_true_eq, decide_eq_true_eq]
  by_cases h : t.val + 1 < (cfg0 a).N
  · refine Or.inr ⟨h, fun e => ?_⟩
    have e0 := congrFun e (0 : Fin 3)
    rw [(rowBlock_index a ⟨t.val + 1, h⟩).1, (rowBlock_index a t).1] at e0
    exact absurd e0 (Nat.succ_ne_self _)
  · exact Or.inl (by have := t.isLt; omega)

theorem cut_rows (G : S1232x1x768.Idx → Elt F .f32) (t : Fin (cfg0 a).N) (X : Vec F S16x1x768 .f32)
    (hX : ∀ (r : Fin 16) (d : Fin 768) (k : Fin 1232), k.val = 16 * t.val + r.val → X (ix3 r 0 d) = G (ix3 k 0 d)) :
    ((cfg0 a).win 0).cut ((cfg0 a).grid.coords t) X = (((cfg0 a).win 0).blk t).view.read (Elt F) G := by
  refine funext fun (j : S16x1x768.Idx) => ?_
  have hj0 : (j 0).val < 16 := (j 0).isLt
  have hj1 : (j 1).val < 1 := (j 1).isLt
  have hj2 : (j 2).val < 768 := (j 2).isLt
  have ht : t.val < 77 := lt_of_lt_of_eq t.isLt (N0_at a)
  obtain ⟨e0, e1, e2⟩ := rowBlock_index a t
  show X (((cfg0 a).win 0).xinj ((cfg0 a).grid.coords t) j) = G ((((cfg0 a).win 0).blk t).view.emb j)
  refine (congrArg X ?_).trans ((hX ⟨(j 0).val, hj0⟩ ⟨(j 2).val, hj2⟩ ⟨16 * t.val + (j 0).val, by omega⟩ rfl).trans (congrArg G ?_))
  · funext b; apply Fin.ext
    match b with
    | ⟨0, _⟩ => rfl
    | ⟨1, _⟩ => show (j 1).val = 0; omega
    | ⟨2, _⟩ => rfl
  · funext b; apply Fin.ext
    match b with
    | ⟨0, _⟩ => show 16 * t.val + (j 0).val = ((cfg0 a).win 0).index t (0 : Fin 3) * 16 + 1 * (j 0).val; omega
    | ⟨1, _⟩ => show 0 = ((cfg0 a).win 0).index t (1 : Fin 3) * 1 + 1 * (j 1).val; omega
    | ⟨2, _⟩ => show (j 2).val = ((cfg0 a).win 0).index t (2 : Fin 3) * 768 + 1 * (j 2).val; omega

theorem mem_blk0 (t : Fin (cfg0 a).N) (i : S1232x1x768.Idx) :
    i ∈ (((cfg0 a).win 0).blk t).view.set ↔ ∀ b : Fin 3, ((cfg0 a).win 0).index t b * S16x1x768.size b ≤ (i b).val ∧ (i b).val < ((cfg0 a).win 0).index t b * S16x1x768.size b + S16x1x768.size b := by
  show i ∈ ((View.whole main_v36).slice (((cfg0 a).win 0).rect t)).set ↔ _
  refine (Iff.of_eq (congrArg (fun s => i ∈ s) (View.set_slice_whole main_v36 (((cfg0 a).win 0).rect t)))).trans ?_
  exact Rect.mem_set_unit

theorem cover0 (i : S1232x1x768.Idx) :
    ∃ t : Fin (cfg0 a).N, ((cfg0 a).win 0).flush t = true ∧ i ∈ (((cfg0 a).win 0).blk t).view.set := by
  have hi0 : (i 0).val < 1232 := (i 0).isLt
  have hi1 : (i 1).val < 1 := (i 1).isLt
  have hi2 : (i 2).val < 768 := (i 2).isLt
  have hN : (cfg0 a).N = 77 := N0_at a
  obtain ⟨t, ht⟩ : ∃ t : Fin (cfg0 a).N, t.val = (i 0).val / 16 := ⟨⟨_, by omega⟩, rfl⟩
  obtain ⟨e0, e1, e2⟩ := rowBlock_index a t
  refine ⟨t, flush0_0 a t, (mem_blk0 a t i).mpr fun b => ?_⟩
  match b with
  | ⟨0, _⟩ => show ((cfg0 a).win 0).index t (0 : Fin 3) * 16 ≤ (i 0).val ∧ (i 0).val < ((cfg0 a).win 0).index t (0 : Fin 3) * 16 + 16; omega
  | ⟨1, _⟩ => show ((cfg0 a).win 0).index t (1 : Fin 3) * 1 ≤ (i 1).val ∧ (i 1).val < ((cfg0 a).win 0).index t (1 : Fin 3) * 1 + 1; omega
  | ⟨2, _⟩ => show ((cfg0 a).win 0).index t (2 : Fin 3) * 768 ≤ (i 2).val ∧ (i 2).val < ((cfg0 a).win 0).index t (2 : Fin 3) * 768 + 768; omega

theorem out0_array (c : Dev nD) (G : S1232x1x768.Idx → Elt F .f32)
    (hG : ∀ (t : Fin (cfg0 a).N) (r : Fin 16) (d : Fin 768) (k : Fin 1232), k.val = 16 * t.val + r.val →
      ((dat0 V a c).after 0 t : Vec F S16x1x768 .f32) (ix3 r 0 d) = G (ix3 k 0 d)) :
    (dat0 V a c).arrAt 0 (cfg0 a).N = G :=
  (dat0 V a c).arrAt_eq_of_cover 0 G (fun t _ => cut_rows a G t ((dat0 V a c).after 0 t) (hG t)) (cover0 a)

theorem coords0_at (t : Fin (cfg0 a).N) : ((cfg0 a).grid.coords t (0 : Fin 1)).val = t.val := (rowBlock_idx t).2.2.2

end Out0Array

end Cert.KernelIdeal.Hand

end
-- ==== Proof.KIHost.lean ====
import proofs.«402305_j66125316489726_3_alg».proof.Proof.KIIds
import proofs.«402305_j66125316489726_3_alg».proof.Proof.Gen.KernelIdeal.Regions
import proofs.«402305_j66125316489726_3_alg».proof.Proof.RefRead
import Idealize.ShloMosaic.Lib.Pipeline.Value
import Idealize.ShloMosaic.Lib.ValueIdx
import Idealize.ShloMosaic.Lib.StableHlo.Run
import Idealize.ShloMosaic.Lib.StableHlo.Predicate

noncomputable section

namespace Cert.KernelIdeal.Host

open Cert.KernelIdeal Cert.KernelIdeal.Gen
open Idealize.ShloMosaic Idealize.ShloMosaic.TcCoe Idealize.ShloMosaic.ValueIdx
open Idealize.SL.Sem
open Cert.ReferenceIdeal.Read

variable {F : FTy → Type} [FloatOps F]

noncomputable abbrev posB (v : S16x77.Idx → BitVec 32) :=
  broadcastInDim S16x77x16 ![0, 1, 2] bcast_S16x77x1_S16x77x16_0_1_2 (broadcastInDim S16x77x1 ![0, 1] bcast_S16x77_S16x77x1_0_1 v)
noncomputable abbrev colB :=
  broadcastInDim S16x77x16 ![0, 1, 2] bcast_S1x1x16_S16x77x16_0_1_2 (broadcastInDim S1x1x16 ![2] bcast_S16_S1x1x16_2 (iotaInDim S16 32 0))

theorem bcast_pos_apply (v : S16x77.Idx → BitVec 32) (b : Fin 16) (l : Fin 77) (k : Fin 16) :
    posB v (ix3 b l k) = v (ix2 b l) := by
  refine (broadcastInDim_apply _ bcast_S16x77x1_S16x77x16_0_1_2 _ (ix3 b l k) (ix3 b l (0 : Fin 1)) fun a => ?_).trans
    (broadcastInDim_apply _ bcast_S16x77_S16x77x1_0_1 v (ix3 b l (0 : Fin 1)) (ix2 b l) fun a => ?_)
  · match a with
    | ⟨0, _⟩ | ⟨1, _⟩ | ⟨2, _⟩ => rfl
  · match a with
    | ⟨0, _⟩ | ⟨1, _⟩ => rfl

theorem bcast_iota_apply (b : Fin 16) (l : Fin 77) (k : Fin 16) :
    colB (ix3 b l k) = BitVec.ofNat 32 k.val := by
  refine (broadcastInDim_apply _ bcast_S1x1x16_S16x77x16_0_1_2 _ (ix3 b l k) (ix3 (0 : Fin 1) (0 : Fin 1) k) fun a => ?_).trans
    ((broadcastInDim_apply _ bcast_S16_S1x1x16_2 (iotaInDim S16 32 0) (ix3 (0 : Fin 1) (0 : Fin 1) k) (ix1 k) fun a => ?_).trans rfl)
  · match a with
    | ⟨0, _⟩ | ⟨1, _⟩ | ⟨2, _⟩ => rfl
  · match a with
    | ⟨0, _⟩ => rfl

theorem bit_toEReal (q : BitVec 1) : (((q.toNat : ℝ) : EReal)) = if q = 1#1 then (1 : EReal) else 0 := by
  rcases BitVec.eq_zero_or_eq_one q with rfl | rfl <;> simp

theorem uitofp_bit_apply {s : Shape} (x : IVec s 1) (i : s.Idx) :
    (uitofp .f32 x : FVec Ideal s .f32) i = if x i = 1#1 then (1 : EReal) else 0 := bit_toEReal (x i)

theorem cmpi_eq_col (w : BitVec 32) (k : Fin 16) : IntOp.cmpi .eq w (BitVec.ofNat 32 k.val) = 1#1 ↔ w.toNat = k.val := by
  rw [StableHlo.Predicate.cmpi_eq_iff]
  have hk : k.val % 2 ^ 32 = k.val := Nat.mod_eq_of_lt (by have := k.isLt; omega)
  constructor
  · intro h; rw [h, BitVec.toNat_ofNat, hk]
  · intro h; apply BitVec.eq_of_toNat_eq; rw [h, BitVec.toNat_ofNat, hk]

section Entry
variable (m : (ℓ : Loc nD τ sig) → Buf (Elt F) ℓ) (outs : Outs (F := F)) (c : Dev nD)

theorem V11_v11 : V11 m outs c main_v11 = val_main_v11 (F := F) (m ((c : Thread nD τ).loc main_arg1)) := by
  rw [V11_of, Ids.V10_v11] <;> decide

theorem V11_v24 : V11 m outs c main_v24 = val_main_v24 (F := F) (m ((c : Thread nD τ).loc main_arg1)) := by
  rw [V11_of, Ids.V10_v24] <;> decide

theorem emb_eq : (V12 m outs c main_v37 : S16x77x768.Idx → Elt F .f32)
    = shapeCast S16x77x768 (outs 11 main_v36 c : S1232x1x768.Idx → Elt F .f32) shapeCasts_S1232x1x768_S16x77x768 := by
  delta V12 hostOps1
  after_results
  congr 1

theorem mask_eq : (V12 m outs c main_v39 : S16x1x77.Idx → Elt F .f32)
    = shapeCast S16x1x77 (uitofp .f32 (val_main_v11 (F := F) (m ((c : Thread nD τ).loc main_arg1))) : S16x77.Idx → Elt F .f32)
        shapeCasts_S16x77_S16x1x77 := by
  rw [← V11_v11 m outs c]
  delta V12 hostOps1
  after_results
  rfl

theorem onehot_eq : (V12 m outs c main_v46 : S16x77x16.Idx → Elt F .f32)
    = uitofp .f32 (cmpi .eq (posB (val_main_v24 (F := F) (m ((c : Thread nD τ).loc main_arg1)))) colB) := by
  rw [← V11_v24 m outs c]
  delta V12 hostOps1
  after_results

theorem emb_apply (b : Fin 16) (l : Fin 77) (d : Fin 768) :
    (V12 m outs c main_v37 : S16x77x768.Idx → Elt F .f32) (ix3 b l d)
      = (outs 11 main_v36 c : S1232x1x768.Idx → Elt F .f32)
          (ix3 (⟨77 * b.val + l.val, by omega⟩ : Fin 1232) (0 : Fin 1) d) := by
  rw [emb_eq]
  refine shapeCast_apply (s := S1232x1x768) (t := S16x77x768) _ _ _ _ ?_
  rw [Shape.rowMajor_val_three, Shape.rowMajor_val_three]
  show ((77 * b.val + l.val) * 1 + 0) * 768 + d.val = (b.val * 77 + l.val) * 768 + d.val
  omega

theorem ctx_kept : V12 m outs c main_arg2 = m ((c : Thread nD τ).loc main_arg2) := by
  rw [V12_of, V11_of, V10_of, V9_of, V8_of, V7_of, V6_of, V5_of, V4_of, V3_of, V2_of, V1_of] <;> first | rfl | decide

theorem table_kept : V10 m c main_arg3 = m ((c : Thread nD τ).loc main_arg3) := by
  rw [V10_of, V9_of, V8_of, V7_of, V6_of, V5_of, V4_of, V3_of, V2_of, V1_of] <;> first | rfl | decide

theorem out1_eq : V13 m outs c main_v34
    = val_main_v34 (F := F) (m ((c : Thread nD τ).loc main_arg0)) (m ((c : Thread nD τ).loc main_arg1)) (m ((c : Thread nD τ).loc main_arg4)) := by
  rw [V13_of, V12_of, V11_of, Ids.V10_v34] <;> decide

end Entry

section AtIdeal
variable (m : (ℓ : Loc nD τ sig) → Buf (Elt Ideal) ℓ) (outs : Outs (F := Ideal)) (c : Dev nD)

theorem mask_apply (b : Fin 16) (l : Fin 77) :
    (V12 m outs c main_v39 : S16x1x77.Idx → EReal) (ix3 b (0 : Fin 1) l)
      = if val_main_v11 (F := Ideal) (m ((c : Thread nD τ).loc main_arg1)) (ix2 b l) = 1#1 then (1 : EReal) else 0 := by
  rw [mask_eq]
  refine (shapeCast_apply (s := S16x77) (t := S16x1x77) _ _ _ (ix2 b l) ?_).trans (uitofp_bit_apply _ _)
  rw [Shape.rowMajor_val_two, Shape.rowMajor_val_three]
  show b.val * 77 + l.val = (b.val * 1 + 0) * 77 + l.val
  omega

theorem onehot_apply (b : Fin 16) (l : Fin 77) (k : Fin 16) :
    (V12 m outs c main_v46 : S16x77x16.Idx → EReal) (ix3 b l k)
      = if (val_main_v24 (F := Ideal) (m ((c : Thread nD τ).loc main_arg1)) (ix2 b l)).toNat = k.val then (1 : EReal) else 0 := by
  rw [onehot_eq, uitofp_bit_apply]
  generalize val_main_v24 (F := Ideal) (m ((c : Thread nD τ).loc main_arg1)) = v
  refine if_congr ?_ rfl rfl
  show IntOp.cmpi .eq (posB v (ix3 b l k)) (colB (ix3 b l k)) = 1#1 ↔ _
  rw [bcast_pos_apply, bcast_iota_apply]
  exact cmpi_eq_col _ k

end AtIdeal

end Cert.KernelIdeal.Host

end
-- ==== Proof.LibColumns.lean ====
import Idealize.ShloMosaic.Lib.Pipeline.Value
import Idealize.ShloMosaic.Lib.ValueIdx

namespace Cert.Columns

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.IdealMath.lean ====
import proofs.«402305_j66125316489726_3_alg».proof.Proof.Gen.KernelIdeal.Skeleton
import proofs.«402305_j66125316489726_3_alg».proof.Proof.LibColumns
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.IdealMath

open Cert.KernelIdeal Cert.KernelIdeal.Gen
open Idealize.ShloMosaic Idealize.ShloMosaic.ValueIdx
open Cert.Columns

variable {α : Type}

theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

theorem shapeCast_ab_11ab_apply {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp only [Nat.zero_mul, Nat.zero_add])

theorem lhs_dot_0 (i : S77x768.Idx) (q : dot_S77x16_S16x768_S77x768_1_0_0_1_n_n.contr.Idx) :
    (dot_S77x16_S16x768_S77x768_1_0_0_1_n_n.lhsIdx i q 0).val = (i 0).val := by
  unfold DotDims.lhsIdx
  rw [dif_neg (show ¬(0 : Fin S77x16.rank) ∈ dot_S77x16_S16x768_S77x768_1_0_0_1_n_n.lhsBatch by decide),
    dif_pos (show (0 : Fin S77x16.rank) ∈ dot_S77x16_S16x768_S77x768_1_0_0_1_n_n.lhsNonContracting by decide)]
  rfl

theorem lhs_dot_1 (i : S77x768.Idx) (q : dot_S77x16_S16x768_S77x768_1_0_0_1_n_n.contr.Idx) :
    (dot_S77x16_S16x768_S77x768_1_0_0_1_n_n.lhsIdx i q 1).val = (q ⟨0, by decide⟩).val :=
  dot_S77x16_S16x768_S77x768_1_0_0_1_n_n.lhsIdx_val_of_single rfl i q

theorem rhs_dot_0 (i : S77x768.Idx) (q : dot_S77x16_S16x768_S77x768_1_0_0_1_n_n.contr.Idx) :
    (dot_S77x16_S16x768_S77x768_1_0_0_1_n_n.rhsIdx i q 0).val = (q ⟨0, by decide⟩).val :=
  dot_S77x16_S16x768_S77x768_1_0_0_1_n_n.rhsIdx_val_of_single rfl i q

theorem rhs_dot_1 (i : S77x768.Idx) (q : dot_S77x16_S16x768_S77x768_1_0_0_1_n_n.contr.Idx) :
    (dot_S77x16_S16x768_S77x768_1_0_0_1_n_n.rhsIdx i q 1).val = (i 1).val := by
  unfold DotDims.rhsIdx
  rw [dif_neg (show ¬(1 : Fin S16x768.rank) ∈ dot_S77x16_S16x768_S77x768_1_0_0_1_n_n.rhsBatch by decide),
    dif_pos (show (1 : Fin S16x768.rank) ∈ dot_S77x16_S16x768_S77x768_1_0_0_1_n_n.rhsNonContracting by decide)]
  rfl

theorem matmul_zero_apply (A : FVec Ideal S77x16 .f32) (B : FVec Ideal S16x768 .f32) (l : Fin 77) (d : Fin 768) :
    matmul (F := Ideal) dot_S77x16_S16x768_S77x768_1_0_0_1_n_n (some .fp32) A B (constant (F := Ideal) S77x768 .f32 0x00000000#32) (ix2 l d)
      = ∑ c : Fin 16, A (ix2 l c) * B (ix2 c d) := by
  simp only [matmul]
  rw [Ideal.matmul_constant_zero_apply, ← Equiv.sum_comp (contrEquiv1 dot_S77x16_S16x768_S77x768_1_0_0_1_n_n 16 rfl rfl).symm]
  refine Finset.sum_congr rfl fun k _ => ?_
  have hk := contrEquiv1_symm_val dot_S77x16_S16x768_S77x768_1_0_0_1_n_n 16 rfl rfl k
  have el : dot_S77x16_S16x768_S77x768_1_0_0_1_n_n.lhsIdx (ix2 l d) ((contrEquiv1 dot_S77x16_S16x768_S77x768_1_0_0_1_n_n 16 rfl rfl).symm k) = ix2 l k :=
    funext fun a => Fin.ext (by
      match a with
      | ⟨0, _⟩ => exact lhs_dot_0 _ _
      | ⟨1, _⟩ => exact (lhs_dot_1 _ _).trans hk)
  have er : dot_S77x16_S16x768_S77x768_1_0_0_1_n_n.rhsIdx (ix2 l d) ((contrEquiv1 dot_S77x16_S16x768_S77x768_1_0_0_1_n_n 16 rfl rfl).symm k) = ix2 k d :=
    funext fun a => Fin.ext (by
      match a with
      | ⟨0, _⟩ => exact (rhs_dot_0 _ _).trans hk
      | ⟨1, _⟩ => exact rhs_dot_1 _ _)
  rw [el, er]

theorem select_cmp_one_zero (x a b : EReal) :
    Scalar.select (FloatOps.cmpf (F := Ideal) (φ := .f32) .one x (Scalar.ofBits (F := Ideal) .f32 0x00000000#32)) a b
      = if x ≠ 0 then a else b := by
  show Scalar.select (Ideal.cmp .one x (Ideal.ofBits .f32 0x00000000#32)) a b = _
  rw [Ideal.ofBits_zero_f32]
  unfold Ideal.cmp Scalar.select
  by_cases h : x = 0 <;> simp [h]

variable (v0 : Vec Ideal S1x77x768 .f32) (v2 : Vec Ideal S1x77x16 .f32) (v4 : Vec Ideal S1x1x77 .f32)
    (v11 : Vec Ideal S1x16x768 .f32)

theorem pay1_apply_at (l : Fin 77) (d : Fin 768) :
    k1_pay1 (F := Ideal) v0 v2 v4 v11 (ix4 (0 : Fin 1) (0 : Fin 1) l d)
      = if v4 (ix3 (0 : Fin 1) (0 : Fin 1) l) ≠ 0 then ∑ c : Fin 16, v2 (ix3 (0 : Fin 1) l c) * v11 (ix3 (0 : Fin 1) c d)
        else v0 (ix3 (0 : Fin 1) l d) := by
  unfold k1_pay1
  refine (shapeCast_ab_11ab_apply _ _ l d).trans ?_
  rw [select_apply, cmpf_apply, broadcast_apply, select_cmp_one_zero, matmul_zero_apply]
  rw [broadcastTo_a1_ab_apply, shapeCast_self, shapeCast_a_a1_apply, shapeCast_11a_a_apply]
  simp only [shapeCast_1ab_ab_apply]

theorem onehot_sum (f g : Fin 16 → EReal) (c₀ : Fin 16) (hf : ∀ c, f c = if c = c₀ then 1 else 0) :
    ∑ c, f c * g c = g c₀ := by
  simp only [hf, ite_mul, one_mul, zero_mul, Finset.sum_ite_eq', Finset.mem_univ, if_true]

theorem pay1_apply_onehot (l : Fin 77) (d : Fin 768) (c₀ : Fin 16)
    (hm : v4 (ix3 (0 : Fin 1) (0 : Fin 1) l) = 1 ∨ v4 (ix3 (0 : Fin 1) (0 : Fin 1) l) = 0)
    (hoh : ∀ c : Fin 16, v2 (ix3 (0 : Fin 1) l c) = if c = c₀ then 1 else 0) :
    k1_pay1 (F := Ideal) v0 v2 v4 v11 (ix4 (0 : Fin 1) (0 : Fin 1) l d)
      = if v4 (ix3 (0 : Fin 1) (0 : Fin 1) l) = 1 then v11 (ix3 (0 : Fin 1) c₀ d) else v0 (ix3 (0 : Fin 1) l d) := by
  rw [pay1_apply_at v0 v2 v4 v11 l d, onehot_sum (fun c => v2 (ix3 (0 : Fin 1) l c)) (fun c => v11 (ix3 (0 : Fin 1) c d)) c₀ hoh]
  rcases hm with h | h
  · rw [h, if_pos one_ne_zero, if_pos rfl]
  · rw [h, if_neg (not_not.mpr rfl), if_neg zero_ne_one]

end Cert.KernelIdeal.IdealMath

end
-- ==== Proof.Bridge.lean ====
import proofs.«402305_j66125316489726_3_alg».proof.Proof.KIRun
import proofs.«402305_j66125316489726_3_alg».proof.Proof.KIOut1
import proofs.«402305_j66125316489726_3_alg».proof.Proof.KIOut0
import proofs.«402305_j66125316489726_3_alg».proof.Proof.KIHost
import proofs.«402305_j66125316489726_3_alg».proof.Proof.KIIds
import proofs.«402305_j66125316489726_3_alg».proof.Proof.IdealMath
import proofs.«402305_j66125316489726_3_alg».proof.Proof.RefSide

noncomputable section

namespace Cert.KernelIdeal.Bridge

open Cert.KernelIdeal Cert.KernelIdeal.Gen Cert.KernelIdeal.Hand Cert.KernelIdeal.Host Cert.KernelIdeal.Ids
open Cert.KernelIdeal.Gather Cert.KernelIdeal.Combine Cert.KernelIdeal.IdealMath
open Idealize.ShloMosaic Idealize.ShloMosaic.TcCoe Idealize.ShloMosaic.ValueIdx Idealize.SL.Sem
open Cert.ReferenceIdeal.Read Cert.ReferenceIdeal.RefSide

variable (m : (ℓ : Loc nD τ sig) → Buf (Elt Ideal) ℓ) (c : Dev nD)

theorem blend_entry
    (htok : ∀ i : Cert.ReferenceIdeal.S16x77.Idx, ((m ((c : Thread nD τ).loc main_arg0)) i).toNat < 49408)
    (hemb : ∀ (b : Fin 16) (l : Fin 77) (d : Fin 768),
      (VB m c main_v37 : S16x77x768.Idx → EReal) (ix3 b l d)
        = (m ((c : Thread nD τ).loc main_arg3) : S49408x768.Idx → EReal)
            (ix2 ⟨(val_main_v25 (F := Ideal) (m ((c : Thread nD τ).loc main_arg0)) (m ((c : Thread nD τ).loc main_arg1)) (ix2 b l)).toNat,
              tok_lt _ _ htok b l⟩ d))
    (vi : Fin 3) (b : Fin 16) (vv : Fin 39) (l : Fin 77) (d : Fin 768) :
    (combineOut (iblk1 (VB m) c 0 (pt1 vi b)) (iblk1 (VB m) c 2 (pt1 vi b)) (iblk1 (VB m) c 3 (pt1 vi b)) (iblk1 (VB m) c 1 (pt1 vi b))
        : S1x39x77x768.Idx → EReal) (ix4 (0 : Fin 1) vv l d)
      = val_main_v54 (F := Ideal) (m ((c : Thread nD τ).loc main_arg0)) (m ((c : Thread nD τ).loc main_arg1))
          (m ((c : Thread nD τ).loc main_arg2)) (m ((c : Thread nD τ).loc main_arg3))
          (ix4 b (⟨39 * vi.val + vv.val, by omega⟩ : Fin 117) l d) := by
  have hmask := (iblk1_3_apply (VB m) c vi b l).trans (mask_apply m (outsA m) c b l)
  have hoh : ∀ k : Fin 16, (iblk1 (VB m) c 2 (pt1 vi b) : S1x77x16.Idx → EReal) (ix3 (0 : Fin 1) l k)
      = if k = (⟨(val_main_v24 (F := Ideal) (m ((c : Thread nD τ).loc main_arg1)) (ix2 b l)).toNat,
          Nat.lt_of_le_of_lt (cpos_range _ _) (by decide)⟩ : Fin 16) then (1 : EReal) else 0 := fun k =>
    (iblk1_2_apply (VB m) c vi b l k).trans ((onehot_apply m (outsA m) c b l k).trans
      (if_congr ⟨fun h => Fin.ext h.symm, fun h => (congrArg Fin.val h).symm⟩ rfl rfl))
  show k1_pay1 (F := Ideal) _ _ _ (rowOf _ vv) (ix4 (0 : Fin 1) (0 : Fin 1) l d) = _
  rw [out0_apply _ _ _ _ htok, pay1_apply_onehot _ _ _ _ l d _ (by rw [hmask]; exact ite_eq_or_eq _ _ _) hoh, hmask]
  rcases BitVec.eq_zero_or_eq_one (val_main_v11 (F := Ideal) (m ((c : Thread nD τ).loc main_arg1)) (ix2 b l)) with hb | hb
  · rw [hb, if_neg (show ¬ ((0#1 : BitVec 1) = 1#1) by decide), if_neg (zero_ne_one (α := EReal)), iblk1_0_apply]
    exact hemb b l d
  · rw [hb, if_pos (show (1#1 : BitVec 1) = 1#1 from rfl), if_pos (show (1 : EReal) = 1 from rfl)]
    exact (iblk1_1_apply (VB m) c vi b vv _ d).trans (congrFun (ctx_kept m (outsA m) c) _)

noncomputable def gatheredRows : S1232x1x768.Idx → EReal := fun j =>
  (m ((c : Thread nD τ).loc main_arg3) : S49408x768.Idx → EReal)
    (ix2 (⟨((V10 m c main_v35 : S1232.Idx → BitVec 32) (ix1 (j 0))).toNat % 49408, Nat.mod_lt _ (by decide)⟩ : Fin 49408) (j 2))

theorem gather_array (hlt : ∀ k : Fin 1232, ((V10 m c main_v35 : S1232.Idx → BitVec 32) (ix1 k)).toNat < 49408) :
    (dat0 (VA m) (adm m 0) c).arrAt 0 (cfg0 (adm m 0)).N = gatheredRows m c := by
  refine out0_array (VA m) (adm m 0) c (gatheredRows m c) fun t r d k hk => ?_
  rw [after0_0]
  have hi : 16 * ((cfg0 (adm m 0)).grid.coords t (0 : Fin 1)).val + r.val = k.val := by rw [coords0_at, hk]
  have hw : idWord ((cfg0 (adm m 0)).grid.coords t) (VA m c main_v35) r = (V10 m c main_v35 : S1232.Idx → BitVec 32) (ix1 k) :=
    congrArg (fun q : Fin 1232 => (V10 m c main_v35 : S1232.Idx → BitVec 32) (ix1 q)) (Fin.ext hi)
  rw [gatherOut_apply c _ _ _ r d (by rw [hw]; exact hlt k)]
  show (VA m c main_arg3 : S49408x768.Idx → EReal) _ = _
  unfold gatheredRows
  rw [show (VA m c main_arg3 : S49408x768.Idx → EReal) = (m ((c : Thread nD τ).loc main_arg3) : S49408x768.Idx → EReal) from table_kept m c]
  refine congrArg (fun q : Fin 49408 => (m ((c : Thread nD τ).loc main_arg3) : S49408x768.Idx → EReal) (ix2 q d)) (Fin.ext ?_)
  show (idWord ((cfg0 (adm m 0)).grid.coords t) (VA m c main_v35) r).toNat = ((V10 m c main_v35 : S1232.Idx → BitVec 32) (ix1 k)).toNat % 49408
  rw [hw, Nat.mod_eq_of_lt (hlt k)]

theorem emb_val [Cert.Pre_finite_inputs.Facts]
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (htok : ∀ i : Cert.ReferenceIdeal.S16x77.Idx, ((m ((c : Thread nD τ).loc main_arg0)) i).toNat < 49408)
    (b : Fin 16) (l : Fin 77) (d : Fin 768) :
    (VB m c main_v37 : S16x77x768.Idx → EReal) (ix3 b l d)
      = (m ((c : Thread nD τ).loc main_arg3) : S49408x768.Idx → EReal)
          (ix2 ⟨(val_main_v25 (F := Ideal) (m ((c : Thread nD τ).loc main_arg0)) (m ((c : Thread nD τ).loc main_arg1)) (ix2 b l)).toNat,
            tok_lt _ _ htok b l⟩ d) := by
  have hlt := fun k => ids_lt m c hpre k
  refine (emb_apply m (outsA m) c b l d).trans ?_
  show (W11 m c main_v36 : S1232x1x768.Idx → EReal) _ = _
  have hW : (W11 m c main_v36 : S1232x1x768.Idx → EReal) = (dat0 (VA m) (adm m 0) c).arrAt 0 (cfg0 (adm m 0)).N := by
    unfold W11
    exact Pipeline.withArrays_arr spec0 (launch0 (F := Ideal)).win.arr_inj c (V10 m c) (fun w => (dat0 (VA m) (adm m 0) c).arrAt w (cfg0 (adm m 0)).N) 0
  rw [hW, gather_array m c hlt]
  unfold gatheredRows
  refine congrArg (fun q : Fin 49408 => (m ((c : Thread nD τ).loc main_arg3) : S49408x768.Idx → EReal) (ix2 q d)) (Fin.ext ?_)
  show ((V10 m c main_v35 : S1232.Idx → BitVec 32) (ix1 (⟨77 * b.val + l.val, by omega⟩ : Fin 1232))).toNat % 49408 = _
  rw [ids_apply m c b l, Nat.mod_eq_of_lt (tok_lt _ _ htok b l)]

theorem out0_eq [Cert.Pre_finite_inputs.Facts]
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    V13 m (outs m) c main_v47
      = val_main_v54 (F := Ideal) (m ((c.tc : Thread nD τ).loc main_arg0)) (m ((c.tc : Thread nD τ).loc main_arg1))
          (m ((c.tc : Thread nD τ).loc main_arg2)) (m ((c.tc : Thread nD τ).loc main_arg3)) := by
  have htok : ∀ i : Cert.ReferenceIdeal.S16x77.Idx, ((m ((c : Thread nD τ).loc main_arg0)) i).toNat < 49408 :=
    tok_of_pre _ _ _ _ _ hpre
  refine (hF1 m c 4).symm.trans ?_
  exact out1_array_of_combine (VB m) c _ fun vi b vv l d => blend_entry m c htok (emb_val m c hpre htok) vi b vv l d

end Cert.KernelIdeal.Bridge

end
-- ==== Proof.RefRun.lean ====
import proofs.«402305_j66125316489726_3_alg».proof.Proof.RefRead
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

noncomputable abbrev ops_part0 : List (HloOp τ sig (Elt F)) :=
  [ unary main_arg1 main_v0 (broadcastInDim S16x1 ![0] bcast_S16_S16x1_0),
    nullary main_v1 (iotaInDim S77 32 0),
    unary main_v1 main_v2 (broadcastInDim S1x77 ![1] bcast_S77_S1x77_1),
    unary main_v2 main_v3 (broadcastInDim S16x77 ![0, 1] bcast_S1x77_S16x77_0_1),
    unary main_v0 main_v4 (broadcastInDim S16x77 ![0, 1] bcast_S16x1_S16x77_0_1),
    binary main_v3 main_v4 main_v5 (cmpi .sgt),
    nullary main_c (constantI S_ 32 16#32),
    unary main_c main_v6 (broadcastInDim S16x1 ![] bcast_S_S16x1),
    binary main_v0 main_v6 main_v7 addi,
    unary main_v2 main_v8 (broadcastInDim S16x77 ![0, 1] bcast_S1x77_S16x77_0_1),
    unary main_v7 main_v9 (broadcastInDim S16x77 ![0, 1] bcast_S16x1_S16x77_0_1),
    binary main_v8 main_v9 main_v10 (cmpi .sle),
    binary main_v5 main_v10 main_v11 andi,
    unary main_v2 main_v12 (broadcastInDim S16x77 ![0, 1] bcast_S1x77_S16x77_0_1),
    unary main_v0 main_v13 (broadcastInDim S16x77 ![0, 1] bcast_S16x1_S16x77_0_1),
    binary main_v12 main_v13 main_v14 (cmpi .sle),
    nullary main_c_0 (constantI S_ 32 16#32),
    unary main_c_0 main_v15 (broadcastInDim S1x77 ![] bcast_S_S1x77),
    binary main_v2 main_v15 main_v16 subi,
    unary main_v2 main_call0_v0 (broadcastInDim S16x77 ![0, 1] bcast_S1x77_S16x77_0_1),
    unary main_v16 main_call0_v1 (broadcastInDim S16x77 ![0, 1] bcast_S1x77_S16x77_0_1),
    ternary main_v14 main_call0_v0 main_call0_v1 main_v17 select,
    nullary main_c_1 (constantI S_ 32 0#32),
    nullary main_c_2 (constantI S_ 32 76#32),
    unary main_c_1 main_call1_v0 id,
    unary main_call1_v0 main_call1_v1 (broadcastInDim S16x77 ![] bcast_S_S16x77),
    binary main_call1_v1 main_v17 main_call1_v2 maxsi,
    unary main_c_2 main_call1_v3 id,
    unary main_call1_v3 main_call1_v4 (broadcastInDim S16x77 ![] bcast_S_S16x77),
    binary main_call1_v4 main_call1_v2 main_v18 minsi,
    unary main_v2 main_v19 (broadcastInDim S16x77 ![0, 1] bcast_S1x77_S16x77_0_1),
    unary main_v0 main_v20 (broadcastInDim S16x77 ![0, 1] bcast_S16x1_S16x77_0_1),
    binary main_v19 main_v20 main_v21 subi,
    nullary main_c_3 (constantI S_ 32 1#32),
    unary main_c_3 main_v22 (broadcastInDim S16x77 ![] bcast_S_S16x77),
    binary main_v21 main_v22 main_v23 subi,
    nullary main_c_4 (constantI S_ 32 0#32),
    nullary main_c_5 (constantI S_ 32 15#32),
    unary main_c_4 main_call2_v0 id,
    unary main_call2_v0 main_call2_v1 (broadcastInDim S16x77 ![] bcast_S_S16x77),
    binary main_call2_v1 main_v23 main_call2_v2 maxsi,
    unary main_c_5 main_call2_v3 id,
    unary main_call2_v3 main_call2_v4 (broadcastInDim S16x77 ![] bcast_S_S16x77),
    binary main_call2_v4 main_call2_v2 main_v24 minsi ]

noncomputable abbrev ops_part1 : List (HloOp τ sig (Elt F)) :=
  [ nullary main_call3_c (constantI S_ 32 0#32),
    unary main_call3_c main_call3_v0 (broadcastInDim S16x77 ![] bcast_S_S16x77),
    binary main_v18 main_call3_v0 main_call3_v1 (cmpi .slt),
    nullary main_call3_c_0 (constantI S_ 32 77#32),
    unary main_call3_c_0 main_call3_v2 (broadcastInDim S16x77 ![] bcast_S_S16x77),
    binary main_v18 main_call3_v2 main_call3_v3 addi,
    ternary main_call3_v1 main_call3_v3 main_v18 main_call3_v4 select,
    reshape main_call3_v4 main_call3_v5 rfl shapeCasts_S16x77_S16x77x1,
    nullary main_call3_c_1 (constantI S1 32 76#32),
    nullary main_call3_c_2 (constantI S_ 32 0#32),
    unary main_call3_c_2 main_call3_v6 (broadcastInDim S16x77x1 ![] bcast_S_S16x77x1),
    binary main_call3_v5 main_call3_v6 main_call3_v7 (cmpi .sge),
    unary main_call3_c_1 main_call3_v8 (broadcastInDim S1x1x1 ![2] bcast_S1_S1x1x1_2),
    unary main_call3_v8 main_call3_v9 (broadcastInDim S16x77x1 ![0, 1, 2] bcast_S1x1x1_S16x77x1_0_1_2),
    binary main_call3_v5 main_call3_v9 main_call3_v10 (cmpi .sle),
    binary main_call3_v7 main_call3_v10 main_call3_v11 andi,
    nullary main_call3_c_3 (constantI S_ 1 1#1),
    binary main_call3_v11 main_call3_c_3 main_call3_v12 (fun x v => Host.reduce IntOp.andi x v reducesTo_S16x77x1_S16x77_d2 h_S_),
    binary main_arg0 main_call3_v5 main_call3_v13 (fun x i => Host.gather gather_S16x77_S16x77x1_S16x77_n_1_0_0_1_2_11 x i),
    nullary main_call3_c_4 (constantI S_ 32 2147483648#32),
    unary main_call3_c_4 main_call3_v14 (broadcastInDim S16x77 ![] bcast_S_S16x77),
    ternary main_call3_v12 main_call3_v13 main_call3_v14 main_v25 select,
    reshape main_arg4 main_v26 rfl shapeCasts_S1x16_S16,
    nullary main_c_6 (constantI S_ 32 0#32),
    unary main_c_6 main_v27 (broadcastInDim S16x77 ![] bcast_S_S16x77),
    binary main_v24 main_v27 main_v28 (cmpi .slt),
    nullary main_c_7 (constantI S_ 32 16#32),
    unary main_c_7 main_v29 (broadcastInDim S16x77 ![] bcast_S_S16x77),
    binary main_v24 main_v29 main_v30 addi,
    ternary main_v28 main_v30 main_v24 main_v31 select,
    unary main_v31 main_v32 (broadcastInDim S16x77x1 ![0, 1] bcast_S16x77_S16x77x1_0_1),
    binary main_v26 main_v32 main_v33 (fun x i => Host.gather gather_S16_S16x77x1_S16x77_n_0_n_n_0_2_1 x i),
    ternary main_v11 main_v33 main_v25 main_v34 select ]

noncomputable abbrev ops_part2 : List (HloOp τ sig (Elt F)) :=
  [ nullary main_c_8 (constantI S_ 32 0#32),
    unary main_c_8 main_v35 (broadcastInDim S16x77 ![] bcast_S_S16x77),
    binary main_arg0 main_v35 main_v36 (cmpi .slt),
    nullary main_c_9 (constantI S_ 32 49408#32),
    unary main_c_9 main_v37 (broadcastInDim S16x77 ![] bcast_S_S16x77),
    binary main_arg0 main_v37 main_v38 addi,
    ternary main_v36 main_v38 main_arg0 main_v39 select,
    unary main_v39 main_v40 (broadcastInDim S16x77x1 ![0, 1] bcast_S16x77_S16x77x1_0_1),
    binary main_arg3 main_v40 main_v41 (fun x i => Host.gather gather_S49408x768_S16x77x1_S16x77x768_2_0_n_n_0_2_1768 x i),
    unary main_v18 main_v42 (broadcastInDim S16x77x1 ![0, 1] bcast_S16x77_S16x77x1_0_1),
    nullary main_call5_c (constantI S_ 32 0#32),
    unary main_call5_c main_call5_v0 (broadcastInDim S16x77x1 ![] bcast_S_S16x77x1),
    binary main_v42 main_call5_v0 main_call5_v1 (cmpi .slt),
    nullary main_call5_c_0 (constantI S_ 32 77#32),
    unary main_call5_c_0 main_call5_v2 (broadcastInDim S16x77x1 ![] bcast_S_S16x77x1),
    binary main_v42 main_call5_v2 main_call5_v3 addi,
    ternary main_call5_v1 main_call5_v3 main_v42 main_call5_v4 select,
    nullary main_call5_c_1 (constantI S1 32 76#32),
    nullary main_call5_c_2 (constantI S_ 32 0#32),
    unary main_call5_c_2 main_call5_v5 (broadcastInDim S16x77x1 ![] bcast_S_S16x77x1),
    binary main_call5_v4 main_call5_v5 main_call5_v6 (cmpi .sge),
    unary main_call5_c_1 main_call5_v7 (broadcastInDim S1x1x1 ![2] bcast_S1_S1x1x1_2),
    unary main_call5_v7 main_call5_v8 (broadcastInDim S16x77x1 ![0, 1, 2] bcast_S1x1x1_S16x77x1_0_1_2),
    binary main_call5_v4 main_call5_v8 main_call5_v9 (cmpi .sle),
    binary main_call5_v6 main_call5_v9 main_call5_v10 andi,
    nullary main_call5_c_3 (constantI S_ 1 1#1),
    binary main_call5_v10 main_call5_c_3 main_call5_v11 (fun x v => Host.reduce IntOp.andi x v reducesTo_S16x77x1_S16x77_d2 h_S_),
    binary main_v41 main_call5_v4 main_call5_v12 (fun x i => Host.gather gather_S16x77x768_S16x77x1_S16x77x768_2_1_0_0_1_2_11768 x i),
    unary main_call5_v11 main_call5_v13 (broadcastInDim S16x77x768 ![0, 1] bcast_S16x77_S16x77x768_0_1),
    nullary main_call5_cst (constant S_ .f32 0x7FC00000#32),
    unary main_call5_cst main_call5_v14 (broadcastInDim S16x77x768 ![] bcast_S_S16x77x768),
    ternary main_call5_v13 main_call5_v12 main_call5_v14 main_v43 select,
    nullary main_c_10 (constantI S_ 32 0#32),
    unary main_c_10 main_v44 (broadcastInDim S16x77 ![] bcast_S_S16x77),
    binary main_v24 main_v44 main_v45 (cmpi .slt),
    nullary main_c_11 (constantI S_ 32 16#32),
    unary main_c_11 main_v46 (broadcastInDim S16x77 ![] bcast_S_S16x77) ]

noncomputable abbrev ops_part3 : List (HloOp τ sig (Elt F)) :=
  [ binary main_v24 main_v46 main_v47 addi,
    ternary main_v45 main_v47 main_v24 main_v48 select,
    unary main_v48 main_v49 (broadcastInDim S16x77x1 ![0, 1] bcast_S16x77_S16x77x1_0_1),
    binary main_arg2 main_v49 main_v50 (fun x i => Host.gather gather_S117x16x768_S16x77x1_S117x16x77x768_03_1_n_n_1_2_1171768 x i),
    unary main_v11 main_v51 (broadcastInDim S1x16x77x1 ![1, 2] bcast_S16x77_S1x16x77x1_1_2),
    unary main_v43 main_v52 (broadcastInDim S1x16x77x768 ![1, 2, 3] bcast_S16x77x768_S1x16x77x768_1_2_3),
    unary main_v51 main_call6_v0 (broadcastInDim S117x16x77x768 ![0, 1, 2, 3] bcast_S1x16x77x1_S117x16x77x768_0_1_2_3),
    unary main_v52 main_call6_v1 (broadcastInDim S117x16x77x768 ![0, 1, 2, 3] bcast_S1x16x77x768_S117x16x77x768_0_1_2_3),
    ternary main_call6_v0 main_v50 main_call6_v1 main_v53 select,
    unary main_v53 main_v54 (transpose S16x117x77x768 [1, 0, 2, 3] · transposes_S117x16x77x768_S16x117x77x768_1_0_2_3) ]

noncomputable abbrev ops : List (HloOp τ sig (Elt F)) :=
  ops_part0 ++ (ops_part1 ++ (ops_part2 ++ ops_part3))

theorem main_part0_eq (c : Dev nD) : main_part0 (F := F) c = seq (ops_part0 ++ (ops_part1 ++ ops_part2)) := rfl
theorem main_part1_eq (c : Dev nD) : main_part1 (F := F) c = seq ops_part3 := rfl
theorem main_eq (c : Dev nD) : main (F := F) c = seq ops := by
  show (main_part0 (F := F) c >>= fun _ => main_part1 (F := F) c) = _
  rw [main_part0_eq, main_part1_eq, ← seq_append]
  simp only [ops, List.append_assoc]
theorem scopedRefs_eq : (Finset.univ.filter fun b : Ref sig .tc => b.isScoped) = ∅ := by decide
theorem scopedSems_eq : (Finset.univ.filter fun sm : SemLoc sig => sm.isScoped .tc) = ∅ := by decide

noncomputable abbrev K0 : List (Ref sig .tc) := [main_arg0, main_arg1, main_arg2, main_arg3, main_arg4]
noncomputable abbrev K1 : List (Ref sig .tc) := K0 ++ [main_v11, main_v18, main_v24]
noncomputable abbrev K2 : List (Ref sig .tc) := K0 ++ [main_v11, main_v24, main_v34]
noncomputable abbrev K3 : List (Ref sig .tc) := K0 ++ [main_v34]

-- What the run asks of one operation: its references lie in `tcRefs`, it determines all it writes, and it writes no reference of `K`.
def Ok (K : List (Ref sig .tc)) (op : HloOp τ sig (Elt F)) : Prop :=
  (op.bufs ⊆ tcRefs τ sig ∧ op.fresh = ∅) ∧ ∀ r ∈ K, Proc.devRef (τ := τ) .tc r ∉ op.writes

-- `devRef` is injective, so the singleton of `y`'s image misses the image of every list without `y`.
theorem notin {K : List (Ref sig .tc)} {y : Ref sig .tc} (h : y ∉ K) : ∀ r ∈ K, Proc.devRef (τ := τ) .tc r ∉ ({Proc.devRef .tc y} : Finset (DevRef τ sig)) :=
  fun r hr e => h (Proc.devRef_injective _ (Finset.mem_singleton.mp e) ▸ hr)

theorem ok : (∀ op ∈ (ops_part0 : List (HloOp τ sig (Elt F))), Ok K0 op) ∧ (∀ op ∈ (ops_part1 : List (HloOp τ sig (Elt F))), Ok K1 op)
    ∧ (∀ op ∈ (ops_part2 : List (HloOp τ sig (Elt F))), Ok K2 op) ∧ ∀ op ∈ (ops_part3 : List (HloOp τ sig (Elt F))), Ok K3 op := by
  refine ⟨?_, ?_, ?_, ?_⟩ <;> (intro _ h; (repeat (cases h with | head => exact ⟨⟨by simp only [nullary_bufs_sub, unary_bufs_sub, binary_bufs_sub, ternary_bufs_sub, reshape_bufs_sub], rfl⟩, by simp only [nullary_writes, unary_writes, binary_writes, ternary_writes, reshape_writes]; exact notin (by decide)⟩ | tail _ h => ?_)); exact nomatch h)

theorem ops_ok (op : HloOp τ sig (Elt F)) (h : op ∈ ops) : op.bufs ⊆ tcRefs τ sig ∧ op.fresh = ∅ := by
  simp only [ops, List.mem_append] at h
  rcases h with h | h | h | h
  exacts [(ok.1 op h).1, (ok.2.1 op h).1, (ok.2.2.1 op h).1, (ok.2.2.2 op h).1]

-- A reference of `K` is written by no operation of the line, so the line leaves it as it was.
theorem keep {l : List (HloOp τ sig (Elt F))} {K : List (Ref sig .tc)} (h : ∀ op ∈ l, Ok K op) (V : Valuation τ sig (Elt F))
    {r : Ref sig .tc} (hr : r ∈ K) : after l V (Proc.devRef .tc r) = V (Proc.devRef .tc r) :=
  after_of_forall_not_mem l V fun op hop => (h op hop).2 r hr

variable (V0 : Valuation τ sig (Elt F)) (r : Ref sig .tc)

noncomputable def val1 : Valuation τ sig (Elt F) := after ops_part0 V0
noncomputable def val2 : Valuation τ sig (Elt F) := after ops_part1 (val1 V0)
noncomputable def val3 : Valuation τ sig (Elt F) := after ops_part2 (val2 V0)
noncomputable def val4 : Valuation τ sig (Elt F) := after ops_part3 (val3 V0)
theorem val1_keep (h : r ∈ K0) : val1 V0 (no_index (Proc.devRef .tc r)) = V0 (Proc.devRef .tc r) := keep ok.1 _ h
theorem val2_keep (h : r ∈ K1) : val2 V0 (no_index (Proc.devRef .tc r)) = val1 V0 (Proc.devRef .tc r) := keep ok.2.1 _ h
theorem val3_keep (h : r ∈ K2) : val3 V0 (no_index (Proc.devRef .tc r)) = val2 V0 (Proc.devRef .tc r) := keep ok.2.2.1 _ h
theorem val4_keep (h : r ∈ K3) : val4 V0 (no_index (Proc.devRef .tc r)) = val3 V0 (Proc.devRef .tc r) := keep ok.2.2.2 _ h

theorem val1_main : val1 V0 (no_index (Proc.devRef .tc main_v11)) = val_main_v11 (F := F) (V0 (Proc.devRef .tc main_arg1))
    ∧ val1 V0 (no_index (Proc.devRef .tc main_v18)) = val_main_v18 (F := F) (V0 (Proc.devRef .tc main_arg1))
    ∧ val1 V0 (no_index (Proc.devRef .tc main_v24)) = val_main_v24 (F := F) (V0 (Proc.devRef .tc main_arg1)) := by
  unfold val1
  simp only [ops_part0]
  refine ⟨?_, ?_, ?_⟩ <;> (after_results_simp; rfl)
theorem val2_main : val2 V0 (no_index (Proc.devRef .tc main_v34)) = val_main_v34 (F := F) (V0 (Proc.devRef .tc main_arg0)) (V0 (Proc.devRef .tc main_arg1)) (V0 (Proc.devRef .tc main_arg4)) := by
  unfold val2
  simp only [ops_part1]
  after_results_simp
  simp (disch := decide) only [val1_keep, val1_main]; rfl
set_option maxHeartbeats 2000000 in
theorem val3_main : val3 V0 (no_index (Proc.devRef .tc main_v43)) = val_main_v43 (F := F) (V0 (Proc.devRef .tc main_arg0)) (V0 (Proc.devRef .tc main_arg1)) (V0 (Proc.devRef .tc main_arg3))
    ∧ val3 V0 (no_index (Proc.devRef .tc main_v45)) = val_main_v45 (F := F) (V0 (Proc.devRef .tc main_arg1))
    ∧ val3 V0 (no_index (Proc.devRef .tc main_v46)) = val_main_v46 (F := F) := by
  unfold val3
  simp only [ops_part2]
  refine ⟨?_, ?_, ?_⟩ <;> (after_results_simp; (try simp (disch := decide) only [val2_keep, val1_keep, val1_main]); rfl)
theorem val4_main : val4 V0 (no_index (Proc.devRef .tc main_v54)) = val_main_v54 (F := F) (V0 (Proc.devRef .tc main_arg0)) (V0 (Proc.devRef .tc main_arg1)) (V0 (Proc.devRef .tc main_arg2)) (V0 (Proc.devRef .tc main_arg3)) := by
  unfold val4
  simp only [ops_part3]
  after_results_simp
  simp (disch := decide) only [val3_keep, val2_keep, val1_keep, val3_main, val1_main]; rfl

-- A reference of `K0` is kept by all four chunks.
theorem val4_arg (h : r ∈ K0) : val4 V0 (Proc.devRef .tc r) = V0 (Proc.devRef .tc r) :=
  (val4_keep _ _ (List.mem_append_left _ h)).trans ((val3_keep _ _ (List.mem_append_left _ h)).trans ((val2_keep _ _ (List.mem_append_left _ h)).trans (val1_keep _ _ h)))

theorem after_ops : after ops V0 = val4 V0 := by
  simp only [ops, after_append]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = val_main_v54 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v34) = val_main_v34 (F := F) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have k := fun b => (h c b).trans (congrFun (after_ops _) _)
    ⟨(k main_v54).trans (val4_main _), (k main_v34).trans ((val4_keep _ _ (by decide)).trans ((val3_keep _ _ (by decide)).trans (val2_main _))),
      (k main_arg0).trans (val4_arg _ _ (by decide)), (k main_arg1).trans (val4_arg _ _ (by decide)), (k main_arg2).trans (val4_arg _ _ (by decide)),
      (k main_arg3).trans (val4_arg _ _ (by decide)), (k main_arg4).trans (val4_arg _ _ (by decide))⟩)
    (run_seq scopedRefs_eq scopedSems_eq defs main (fun _ => ops) main_eq (fun _ => List.forall_iff_forall_mem.mpr fun op h => (ops_ok op h).1) m ρ
      (fun _ op h => (ops_ok op h).2))

end Cert.ReferenceIdeal.RefRun

end
-- ==== Proof.lean ====
import proofs.«402305_j66125316489726_3_alg».proof.Defs
import proofs.«402305_j66125316489726_3_alg».proof.Proof.Gen.Kernel
import proofs.«402305_j66125316489726_3_alg».proof.Proof.Gen.KernelIdeal
import proofs.«402305_j66125316489726_3_alg».proof.Proof.Gen.ReferenceIdeal
import proofs.«402305_j66125316489726_3_alg».proof.Proof.Gen.Pre_finite_inputs
import proofs.«402305_j66125316489726_3_alg».proof.Proof.KIHyps
import proofs.«402305_j66125316489726_3_alg».proof.Proof.KBHyps
import proofs.«402305_j66125316489726_3_alg».proof.Proof.Bridge
import proofs.«402305_j66125316489726_3_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ hpre =>
  (θ_run (Cert.Kernel.defs (F := Bits)) _ _).mono (fun _ h c => (h c).2.2)
    (Cert.Kernel.Hand.run_main (F := Bits) m ρ (Cert.Kernel.Hand.hyps_of_pre m hpre))

theorem frame_ki : Cert.frame_KernelIdeal := fun m ρ hpre =>
  (θ_run (Cert.KernelIdeal.defs (F := Ideal)) _ _).mono (fun _ h c => (h c).2.2)
    (Cert.KernelIdeal.Hand.run_main (F := Ideal) m ρ (Cert.KernelIdeal.Hand.hyps_of_pre m hpre))

theorem frame_ri : Cert.frame_ReferenceIdeal := fun m ρ _ =>
  (θ_run (Cert.ReferenceIdeal.defs (F := Ideal)) _ _).mono (fun _ h c => (h c).2.2)
    (Cert.ReferenceIdeal.RefRun.run (F := Ideal) m ρ)

theorem preserves : Cert.preserves_Kernel_KernelIdeal := trivial

-- Result 0 of both programs is one function of the arguments; result 1 comes from the same host operations in both.
theorem algebraic : Cert.algebraic_KernelIdeal_ReferenceIdeal := by
  intro m ρ m' ρ' hpre hagree
  refine ⟨fun c => Cert.KernelIdeal.Gen.V13 m (Cert.KernelIdeal.Hand.outs m) c Cert.KernelIdeal.main_v47,
    fun c => Cert.KernelIdeal.Gen.V13 m (Cert.KernelIdeal.Hand.outs m) c Cert.KernelIdeal.main_v34,
    Cert.KernelIdeal.Hand.run_main (F := Ideal) m ρ (Cert.KernelIdeal.Hand.hyps_of_pre m hpre), ?_⟩
  refine (θ_run (Cert.ReferenceIdeal.defs (F := Ideal)) _ _).mono (fun _ h c => ?_) (Cert.ReferenceIdeal.RefRun.run (F := Ideal) m' ρ')
  obtain ⟨h0, h1, hargs⟩ := h c
  obtain ⟨e0, e1, e2, e3, e4⟩ := hagree c
  refine ⟨h0.trans ?_, h1.trans ?_, hargs⟩
  · rw [e0, e1, e2, e3]
    exact (Cert.KernelIdeal.Bridge.out0_eq m c (hpre c)).symm
  · rw [e0, e1, e4]
    exact (Cert.KernelIdeal.Host.out1_eq m (Cert.KernelIdeal.Hand.outs m) c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
